-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000 : Shape := ⟨1, ![50000]⟩
abbrev S50000x128 : Shape := ⟨2, ![50000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg7 : FVec F S128 .f32) (main_arg8 : FVec F S128x10 .f32) (main_arg9 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x10 .f32 := Host.absf main_arg8
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg9
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : IVec S800000 32) (main_arg1 : IVec S800000 32) (main_arg2 : IVec S50000 32) (main_arg3 : FVec F S50000x128 .f32) (main_arg4 : FVec F S128x128 .f32) (main_arg5 : FVec F S128 .f32) (main_arg6 : FVec F S128x128 .f32) (main_arg7 : FVec F S128 .f32) (main_arg8 : FVec F S128x10 .f32) (main_arg9 : FVec F S10 .f32) : IVec S_ 1 :=
  let main_v0 : FVec F S50000x128 .f32 := Host.absf main_arg3
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S800000 : Shape := ⟨1, ![800000]⟩
abbrev S50000 : Shape := ⟨1, ![50000]⟩
abbrev S50000x128 : Shape := ⟨2, ![50000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩
abbrev S64x10 : Shape := ⟨2, ![64, 10]⟩
abbrev S64x128 : Shape := ⟨2, ![64, 128]⟩
abbrev S5000x64 : Shape := ⟨2, ![5000, 64]⟩
abbrev S1x10 : Shape := ⟨2, ![1, 10]⟩

abbrev nBuf : Space → Nat
  | .hbm => 62
  | .vmem => 29
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000, .i32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S50000x1, .i32⟩
  | .hbm, ⟨61, _⟩ => ⟨S64x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S128x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S128, .f32⟩
  | .local _ .vmem, ⟨22, _⟩ => ⟨S5000x1, .i32⟩
  | .local _ .vmem, ⟨23, _⟩ => ⟨S5000x1, .i32⟩
  | .local _ .vmem, ⟨24, _⟩ => ⟨S128x10, .f32⟩
  | .local _ .vmem, ⟨25, _⟩ => ⟨S10, .f32⟩
  | .local _ .vmem, ⟨26, _⟩ => ⟨S64x10, .f32⟩
  | .local _ .vmem, ⟨27, _⟩ => ⟨S64x128, .f32⟩
  | .local _ .vmem, ⟨28, _⟩ => ⟨S64x128, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_4 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_scratch0 : Ref sig .tc := ⟨.vmem, 27, rfl⟩
abbrev cc2_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v42 : BitVec 1 := Scalar.cmpi .eq arg0 c9_i32
  let v43 : BitVec 32 := Scalar.extui v42
  let c0_i32_17 : BitVec 32 := 0#32
  let v44 : BitVec 1 := Scalar.cmpi .ne v43 c0_i32_17
  v44

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x10 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S50000_S50000x1 : S50000.ShapeCasts S50000x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  iota_S5000x64_d1_w32 : S5000x64.Iotas .tc 32 [1]
  iota_S5000x64_d0_w32 : S5000x64.Iotas .tc 32 [0]
  broadcasts_S5000x1_S5000x64 : S5000x1.Broadcasts S5000x64
  natLt_1_32 : 1 < 32
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x64_S5000x128_S64x128_0_0_1_1_n_n_wf : DotDims.WF S5000x64 S5000x128 S64x128 [0] [0] [1] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S50000x1.size a
  hwx1_4 : ∀ i : grid1.Coords, EltTy.bits .f32 = 32 ∨ (Rect.block (s := S50000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .i32 = 32 ∨ (Rect.block (s := S50000x1) S5000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x10.size a ≤ S128x10.size a
  hwx2_4 : ∀ i : grid2.Coords, EltTy.bits .f32 = 32 ∨ (Rect.block (s := S128x10) S128x10.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S10.size a ≤ S10.size a
  hwx2_5 : ∀ i : grid2.Coords, EltTy.bits .f32 = 32 ∨ (Rect.block (s := S10) S10.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x10.size a ≤ S64x10.size a
  hwx2_6 : ∀ i : grid2.Coords, EltTy.bits .f32 = 32 ∨ (Rect.block (s := S64x10) S64x10.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_arg3) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v24) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x10.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S10.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v36) S64x10.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S800000 : Shape := ⟨1, ![800000]⟩
abbrev S50000 : Shape := ⟨1, ![50000]⟩
abbrev S50000x128 : Shape := ⟨2, ![50000, 128]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 98
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000, .i32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x10, .f32⟩
  | .hbm, ⟨9, _⟩ => ⟨S10, .f32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S800000x1, .i32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S64x128, .f32⟩
  | .hbm, ⟨79, _⟩ => ⟨S50000x1, .i32⟩
  | .hbm, ⟨80, _⟩ => ⟨S64x128, .f32⟩
  | .hbm, ⟨81, _⟩ => ⟨S_, .f32⟩
  | .hbm, ⟨82, _⟩ => ⟨S50000, .f32⟩
  | .hbm, ⟨83, _⟩ => ⟨S_, .f32⟩
  | .hbm, ⟨84, _⟩ => ⟨S64, .f32⟩
  | .hbm, ⟨85, _⟩ => ⟨S50000x1, .i32⟩
  | .hbm, ⟨86, _⟩ => ⟨S64, .f32⟩
  | .hbm, ⟨87, _⟩ => ⟨S_, .f32⟩
  | .hbm, ⟨88, _⟩ => ⟨S_, .f32⟩
  | .hbm, ⟨89, _⟩ => ⟨S64, .f32⟩
  | .hbm, ⟨90, _⟩ => ⟨S64, .f32⟩
  | .hbm, ⟨91, _⟩ => ⟨S64x1, .f32⟩
  | .hbm, ⟨92, _⟩ => ⟨S64x128, .f32⟩
  | .hbm, ⟨93, _⟩ => ⟨S64x128, .f32⟩
  | .hbm, ⟨94, _⟩ => ⟨S64x10, .f32⟩
  | .hbm, ⟨95, _⟩ => ⟨S1x10, .f32⟩
  | .hbm, ⟨96, _⟩ => ⟨S64x10, .f32⟩
  | .hbm, ⟨97, _⟩ => ⟨S64x10, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_cst_2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call2_cst : Ref sig .tc := ⟨.hbm, 53, rfl⟩
abbrev main_call2_v0 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_c_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_call3_v0 : Ref sig .tc := ⟨.hbm, 88, rfl⟩
abbrev main_call3_v1 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x10_S64x10_1_0_0_1_n_n_wf : DotDims.WF S64x128 S128x10 S64x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.K.R0.lean ====
import proofs.«428257_j47124381171999_2_alg».proof.Proof.Gen.Kernel.Launch
import proofs.«428257_j47124381171999_2_alg».proof.Proof.Gen.Kernel.Skeleton
import proofs.«428257_j47124381171999_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.ProofMode Idealize.SL.Sem
open Idealize.ShloMosaic.Pipeline (Dat BodyObligation)

variable {F : FTy → Type} [FloatOps F]

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

def out0_3 (x0 : Vec F S5000x128 .f32) (x1 : Vec F S128x128 .f32) (x2 : Vec F S5000x1 .f32) : Vec F S5000x128 .f32 :=
  View.canon [⟨r0_0, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0_3 (iblk0 V c 0 t) (iblk0 V c 1 t) (iblk0 V c 2 t) := by dsimp only [dat0]

-- the body leaves every input block as it found it, so at each point it finds the block of the entry array
theorem before0 (c : Dev nD) (t : Fin cfg0.N) : (∀ d, (dat0 V c).before 0 t d = iblk0 V c 0 t)
    ∧ (∀ d, (dat0 V c).before 1 t d = iblk0 V c 1 t) ∧ ∀ d, (dat0 V c).before 2 t d = iblk0 V c 2 t := by
  refine ⟨?_, ?_, ?_⟩ <;> exact (dat0 V c).before_in_eq_fetched _ rfl (fun _ => rfl) (fun _ _ _ => rfl) (fun _ => rfl) t

-- one store over the whole output block: the block afterwards is a function of the three input blocks alone
theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl]
  simp only [before0 V c t]
  sl_whnfR [defs₀, Defs.onTc]
  simp only [cc0__prep_matmul_kernel_eq_skeleton]; unfold cc0__prep_matmul_kernel_skel
  dsimp only [dat0]
  unfold owns
  iintro ⟨HΦ, Ho, ⟨%d0, %f0, %hf0, H0⟩, ⟨%d1, %f1, %hf1, H1⟩, ⟨%d2, %f2, %hf2, H2⟩, ⟨%d3, %f3, -, H3⟩⟩
  rw [← hf0, ← hf1, ← hf2]
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x128.size (by rfl))

end Region0

end Cert.Kernel.Hand

end
-- ==== Proof.K.R1.lean ====
import proofs.«428257_j47124381171999_2_alg».proof.Proof.Gen.Kernel.Launch
import proofs.«428257_j47124381171999_2_alg».proof.Proof.Gen.Kernel.Skeleton
import proofs.«428257_j47124381171999_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.ProofMode Idealize.SL.Sem
open Idealize.ShloMosaic.Pipeline (Dat BodyObligation)
open Cert.Kernel Cert.Kernel.Gen

variable {F : FTy → Type} [FloatOps F]

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S128 := Rect.unit (s := S128) ![0] S128.size inb_S128_S128_0
abbrev r1_3 : Rect S128x128 := Rect.unit (s := S128x128) ![0, 0] S128x128.size inb_S128x128_S128x128_0_0

def out1_5 (x0 : Vec F S5000x128 .f32) (x1 : Vec F S5000x1 .f32) (x2 : Vec F S128 .f32) (x3 : Vec F S128x128 .f32) (x4 : Vec F S5000x1 .f32) : Vec F S5000x128 .f32 :=
  View.canon [⟨r1_0, k1_pay1 (View.ld x0 r1_0) (View.ld x1 r1_1) (View.ld x2 r1_2) (View.ld x3 r1_3) (View.ld x4 r1_1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

-- the body leaves every input block as it found it, so at each point it finds the block of the entry array
theorem before1 (c : Dev nD) (t : Fin cfg1.N) : (∀ d, (dat1 V c).before 0 t d = iblk1 V c 0 t)
    ∧ (∀ d, (dat1 V c).before 1 t d = iblk1 V c 1 t) ∧ (∀ d, (dat1 V c).before 2 t d = iblk1 V c 2 t)
    ∧ (∀ d, (dat1 V c).before 3 t d = iblk1 V c 3 t) ∧ ∀ d, (dat1 V c).before 4 t d = iblk1 V c 4 t := by
  refine ⟨?_, ?_, ?_, ?_, ?_⟩ <;> exact (dat1 V c).before_in_eq_fetched _ rfl (fun _ => rfl) (fun _ _ _ => rfl) (fun _ => rfl) t

-- one store over the whole output block: the block afterwards is a function of the five input blocks alone
theorem body_obligation1 (c : Dev nD) : BodyObligation (dat1 (F := F) V c) (defs₀ (F := F)) Variants.none () Set.univ := fun t => by
  rw [bigSep_W1, bigSep_W1, show (dat1 V c).owesAt () t.succ = (dat1 V c).owesAt () t.castSucc from rfl]
  simp only [before1 V c t]
  sl_whnfR [defs₀, Defs.onTc]
  simp only [cc1__epi_prep_kernel_eq_skeleton]; unfold cc1__epi_prep_kernel_skel
  dsimp only [dat1]
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [← hf0, ← hf1, ← hf2, ← hf3, ← hf4]
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x128.size (by rfl))

end Region1

end Cert.Kernel.Hand

end
-- ==== Proof.K.R2.lean ====
import proofs.«428257_j47124381171999_2_alg».proof.Proof.Gen.Kernel.Launch
import proofs.«428257_j47124381171999_2_alg».proof.Proof.Gen.Kernel.Skeleton
import proofs.«428257_j47124381171999_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem offs2_zero : (![0, 0] : Fin 2 → Nat) = fun _ => 0 := funext fun a => by fin_cases a <;> rfl
theorem offs1_zero : (![0] : Fin 1 → Nat) = fun _ => 0 := funext fun a => by fin_cases a; rfl

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Region2

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1

theorem hcond2_1 : ∀ t : Fin cfg2.N, cond2_1 (grid2.coords t) ↔ t.val = 9 :=
  (by decide +kernel : ∀ t : Fin grid2.N, cond2_1 (grid2.coords t) ↔ t.val = 9)

theorem idleAt2_6 : ∀ t : Fin cfg2.N, ¬cond2_1 (grid2.coords t) → idle2 6 (grid2.coords t) = true := by decide +kernel

theorem noFlush2_6 : ∀ t : Fin cfg2.N, ¬cond2_1 (grid2.coords t) → (win2 6).flush t = false := by decide +kernel

theorem liveAt2_6 : ∀ t : Fin cfg2.N, cond2_1 (grid2.coords t) → idle2 6 (grid2.coords t) = false := by decide +kernel

abbrev scM2_0 : Memref sig .tc .vmem S64x128 .f32 := Memref.whole cc2_scratch0
abbrev scM2_1 : Memref sig .tc .vmem S64x128 .f32 := Memref.whole cc2_scratch1

-- Everything the call does not touch, kept as one unopened resource.
def rest2 (c : Dev nD) : sProp 𝕄 := Pipeline.scopedRestBut spec2 c [cc2_scratch0, cc2_scratch1]

-- The entry resource, split into the two accumulators and the rest.
theorem PhiA2_eq (c : Dev nD) :
    (Pipeline.ΦA spec2 c : sProp 𝕄)
      = iprop((((∃ d, owns (c : Thread nD τ) scM2_0 fullShare d) ∗ (∃ d, owns (c : Thread nD τ) scM2_1 fullShare d)) ∗ rest2 (F := F) c) ∗ (∃ r, prngReg c r)) := by
  unfold Pipeline.ΦA rest2
  rw [Pipeline.scopedRest_split_of_list spec2 c [cc2_scratch0, cc2_scratch1] (by decide) (by decide)]
  simp only [scM2_0, scM2_1, owns_whole]; try rfl

section Region2
variable (V : (c : Dev nD) → (b : Ref sig .tc) → Buf (Elt F) ((c : Thread nD τ).loc b))

-- One point's update: (the logits of the updated accumulators, the updated sum, the updated count).
def step2 (c : Dev nD) (t : Fin cfg2.N) (s0 s1 : Vec F S64x128 .f32) :
    Vec F S64x10 .f32 × Vec F S64x128 .f32 × Vec F S64x128 .f32 :=
  (k2_pay2 (k2_pay6 (grid2.coords t) (iblk2 V c 0 t) (iblk2 V c 1 t) (iblk2 V c 2 t) (iblk2 V c 3 t) s0)
      (k2_pay1 (k2_pay5 (grid2.coords t) (iblk2 V c 3 t)) k2_pay7 s1 (constant S64x128 .f32 0x00000000#32))
      (iblk2 V c 4 t) (iblk2 V c 5 t),
    k2_pay6 (grid2.coords t) (iblk2 V c 0 t) (iblk2 V c 1 t) (iblk2 V c 2 t) (iblk2 V c 3 t) s0,
    k2_pay1 (k2_pay5 (grid2.coords t) (iblk2 V c 3 t)) k2_pay7 s1 (constant S64x128 .f32 0x00000000#32))

-- After point n: the first point updates zeros, a later point what the point before left.
def outsAt2 (c : Dev nD) : (n : ℕ) → n < cfg2.N → Vec F S64x10 .f32 × Vec F S64x128 .f32 × Vec F S64x128 .f32
  | 0, h => step2 V c ⟨0, h⟩ k2_pay3 k2_pay4
  | n + 1, h => step2 V c ⟨n + 1, h⟩ (outsAt2 c n (Nat.lt_of_succ_lt h)).2.1 (outsAt2 c n (Nat.lt_of_succ_lt h)).2.2

theorem outsAt2_first (c : Dev nD) (t : Fin cfg2.N) (h0 : t.val = 0) :
    outsAt2 V c t.val t.isLt = step2 V c t k2_pay3 k2_pay4 := by
  obtain ⟨n, hn⟩ := t
  cases n with
  | zero => rfl
  | succ n => exact absurd h0 (Nat.succ_ne_zero n)

theorem outsAt2_later (c : Dev nD) (t : Fin cfg2.N) (h0 : ¬t.val = 0) :
    outsAt2 V c t.val t.isLt = step2 V c t (outsAt2 V c (t.val - 1) (Nat.lt_of_le_of_lt (Nat.sub_le _ _) t.isLt)).2.1
      (outsAt2 V c (t.val - 1) (Nat.lt_of_le_of_lt (Nat.sub_le _ _) t.isLt)).2.2 := by
  obtain ⟨n, hn⟩ := t
  cases n with
  | zero => exact absurd rfl h0
  | succ n => rfl

-- The invariant: after a point each accumulator holds that point's update; before the first, anything.
def PhiS (c : Dev nD) : (n : ℕ) → n ≤ cfg2.N → sProp 𝕄
  | 0, _ => Pipeline.ΦA spec2 c
  | n + 1, hn => iprop(rest2 (F := F) c ∗ owns (c : Thread nD τ) scM2_0 fullShare ((outsAt2 V c n hn).2.1)
      ∗ owns (c : Thread nD τ) scM2_1 fullShare ((outsAt2 V c n hn).2.2) ∗ (∃ r, prngReg c r))

theorem PhiS_zero (c : Dev nD) (n : ℕ) (h : n ≤ cfg2.N) (hz : n = 0) : PhiS V c n h = Pipeline.ΦA spec2 c := by
  subst hz; rfl

theorem PhiS_pos (c : Dev nD) (n : ℕ) (h : n ≤ cfg2.N) (hz : n ≠ 0) :
    PhiS V c n h = iprop(rest2 (F := F) c ∗ owns (c : Thread nD τ) scM2_0 fullShare ((outsAt2 V c (n - 1) (by omega)).2.1)
      ∗ owns (c : Thread nD τ) scM2_1 fullShare ((outsAt2 V c (n - 1) (by omega)).2.2) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t = (outsAt2 V c t.val t.isLt).1 := rfl

theorem before2 (c : Dev nD) (t : Fin cfg2.N) : (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ ∀ d, (dat2 V c).before 5 t d = iblk2 V c 5 t := by
  refine ⟨?_, ?_, ?_, ?_, ?_, ?_⟩ <;> exact (dat2 V c).before_in_eq_fetched _ rfl (fun _ => rfl) (fun _ _ _ => rfl) (fun _ => rfl) t

set_option maxHeartbeats 1000000 in
theorem body_obligation2 (c : Dev nD) : BodyObligation (dat2 (F := F) V c) (defs₀ (F := F)) Variants.none () Set.univ := fun t => by
  rw [bigSep_W2, bigSep_W2, show (dat2 V c).owesAt () t.succ = (dat2 V c).owesAt () t.castSucc from rfl,
    show (dat2 V c).Φ t.succ = iprop(rest2 (F := F) c ∗ owns (c : Thread nD τ) scM2_0 fullShare ((outsAt2 V c t.val t.isLt).2.1)
      ∗ owns (c : Thread nD τ) scM2_1 fullShare ((outsAt2 V c t.val t.isLt).2.2) ∗ (∃ r, prngReg c r)) from rfl,
    show (dat2 V c).Φ t.castSucc = PhiS V c t.val (Nat.le_of_lt t.isLt) from rfl]
  simp only [before2 V c t]
  sl_whnfR [defs₀, Defs.onTc]
  simp only [cc2__pool_cls_kernel_eq_skeleton]; unfold cc2__pool_cls_kernel_skel
  dsimp only [dat2]
  by_cases h1 : t.val = 9
  · have h0 : ¬t.val = 0 := by omega
    have hc0 : ¬cond2_0 (grid2.coords t) := fun h => h0 ((hcond2_0 t).mp h)
    have hc1 : cond2_1 (grid2.coords t) := (hcond2_1 t).mpr h1
    rw [liveAt2_6 t hc1, outsAt2_later V c t h0, PhiS_pos V c _ _ h0]
    unfold step2; (try dsimp only)
    unfold owns
    iintro ⟨⟨HR, ⟨%fs0, %hfs0, HS0⟩, ⟨%fs1, %hfs1, HS1⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
    rw [← hf0, ← hf1, ← hf2, ← hf3, ← hf4, ← hf5, ← hfs0, ← hfs1]
    sl_exec (disch := first | exact hc0 | exact hc1)
    sl_step
    isplitl [HR HS0 HS1 Hg]
    · isplitl [HR]; · iexact HR
      isplitl [HS0]
      · iexists _; isplitr
        swap; · iexact HS0
        ipureintro
        refine (View.read_writes_eq_canon _ _ _ (View.cover_of_tiledL _ S64x128.size (by sl_kernel_rfl))).trans ?_
        sl_unfold_words
        rw [View.canon_unit_zero offs2_zero]
        simp only [View.readAt_eq_ld, View.ld_unit_zero (S := S5000x128) offs2_zero, View.ld_unit_zero (S := S5000x1) offs2_zero,
          View.ld_unit_zero (S := S128) offs1_zero, View.ld_unit_zero (S := S64x128) offs2_zero]
      isplitl [HS1]
      · iexists _; isplitr
        swap; · iexact HS1
        ipureintro
        refine (View.read_writes_eq_canon _ _ _ (View.cover_of_tiledL _ S64x128.size (by sl_kernel_rfl))).trans ?_
        sl_unfold_words
        rw [View.canon_unit_zero offs2_zero]
        simp only [View.readAt_eq_ld, View.ld_unit_zero (S := S5000x128) offs2_zero, View.ld_unit_zero (S := S5000x1) offs2_zero,
          View.ld_unit_zero (S := S128) offs1_zero, View.ld_unit_zero (S := S64x128) offs2_zero]
      iexact Hg
    isplitl [Ho]; · iexact Ho
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    refine (View.read_writes_eq_canon _ _ _ (View.cover_of_tiledL _ S64x10.size (by sl_kernel_rfl))).trans ?_
    sl_unfold_words
    rw [View.canon_unit_zero offs2_zero]
    simp only [View.readCov_unit_zero (S := S64x128) _ offs2_zero, View.readAt_eq_ld, View.ld_unit_zero (S := S5000x128) offs2_zero, View.ld_unit_zero (S := S5000x1) offs2_zero,
          View.ld_unit_zero (S := S128) offs1_zero, View.ld_unit_zero (S := S64x128) offs2_zero,
      View.ld_unit_zero (S := S128x10) offs2_zero, View.ld_unit_zero (S := S10) offs1_zero]
  · have hc1 : ¬cond2_1 (grid2.coords t) := fun h => h1 ((hcond2_1 t).mp h)
    rw [idleAt2_6 t hc1, noFlush2_6 t hc1]
    by_cases h0 : t.val = 0
    · have hc0 : cond2_0 (grid2.coords t) := (hcond2_0 t).mpr h0
      rw [outsAt2_first V c t h0, PhiS_zero V c _ _ h0, PhiA2_eq]
      unfold step2; (try dsimp only)
      unfold owns
      iintro ⟨⟨⟨⟨⟨%ds0, %fs0, -, HS0⟩, ⟨%ds1, %fs1, -, HS1⟩⟩, HR⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, H6⟩
      rw [← hf0, ← hf1, ← hf2, ← hf3, ← hf4, ← hf5]
      sl_exec (disch := first | exact hc0 | exact hc1)
      sl_step
      isplitl [HR HS0 HS1 Hg]
      · isplitl [HR]; · iexact HR
        isplitl [HS0]
        · iexists _; isplitr
          swap; · iexact HS0
          ipureintro
          refine (View.read_writes_eq_canon _ _ _ (View.cover_of_tiledL _ S64x128.size (by sl_kernel_rfl))).trans ?_
          sl_unfold_words
          rw [View.canon_cons_unit_zero (S := S64x128) offs2_zero, View.readCov_unit_zero (S := S64x128) _ offs2_zero]
          simp only [View.readAt_eq_ld, View.ld_unit_zero (S := S5000x128) offs2_zero, View.ld_unit_zero (S := S5000x1) offs2_zero,
            View.ld_unit_zero (S := S128) offs1_zero, View.ld_unit_zero (S := S64x128) offs2_zero]
        isplitl [HS1]
        · iexists _; isplitr
          swap; · iexact HS1
          ipureintro
          refine (View.read_writes_eq_canon _ _ _ (View.cover_of_tiledL _ S64x128.size (by sl_kernel_rfl))).trans ?_
          sl_unfold_words
          rw [View.canon_cons_unit_zero (S := S64x128) offs2_zero, View.readCov_unit_zero (S := S64x128) _ offs2_zero]
          simp only [View.readAt_eq_ld, View.ld_unit_zero (S := S5000x128) offs2_zero, View.ld_unit_zero (S := S5000x1) offs2_zero,
            View.ld_unit_zero (S := S128) offs1_zero, View.ld_unit_zero (S := S64x128) offs2_zero]
        iexact Hg
      isplitl [Ho]; · iexact Ho
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      iexact H6
    · have hc0 : ¬cond2_0 (grid2.coords t) := fun h => h0 ((hcond2_0 t).mp h)
      rw [outsAt2_later V c t h0, PhiS_pos V c _ _ h0]
      unfold step2; (try dsimp only)
      unfold owns
      iintro ⟨⟨HR, ⟨%fs0, %hfs0, HS0⟩, ⟨%fs1, %hfs1, HS1⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, H6⟩
      rw [← hf0, ← hf1, ← hf2, ← hf3, ← hf4, ← hf5, ← hfs0, ← hfs1]
      sl_exec (disch := first | exact hc0 | exact hc1)
      sl_step
      isplitl [HR HS0 HS1 Hg]
      · isplitl [HR]; · iexact HR
        isplitl [HS0]
        · iexists _; isplitr
          swap; · iexact HS0
          ipureintro
          refine (View.read_writes_eq_canon _ _ _ (View.cover_of_tiledL _ S64x128.size (by sl_kernel_rfl))).trans ?_
          sl_unfold_words
          rw [View.canon_unit_zero offs2_zero]
          simp only [View.readAt_eq_ld, View.ld_unit_zero (S := S5000x128) offs2_zero, View.ld_unit_zero (S := S5000x1) offs2_zero,
            View.ld_unit_zero (S := S128) offs1_zero, View.ld_unit_zero (S := S64x128) offs2_zero]
        isplitl [HS1]
        · iexists _; isplitr
          swap; · iexact HS1
          ipureintro
          refine (View.read_writes_eq_canon _ _ _ (View.cover_of_tiledL _ S64x128.size (by sl_kernel_rfl))).trans ?_
          sl_unfold_words
          rw [View.canon_unit_zero offs2_zero]
          simp only [View.readAt_eq_ld, View.ld_unit_zero (S := S5000x128) offs2_zero, View.ld_unit_zero (S := S5000x1) offs2_zero,
            View.ld_unit_zero (S := S128) offs1_zero, View.ld_unit_zero (S := S64x128) offs2_zero]
        iexact Hg
      isplitl [Ho]; · iexact Ho
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      iexact H6

theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

-- After the last point the invariant gives the launch's back: the accumulators' contents are forgotten.
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 10 := N_2; omega)]
  rw [PhiA2_eq]
  iintro ⟨HR, HS0, HS1, Hg⟩
  isplitl [HR HS0 HS1]
  · isplitl [HS0 HS1]
    · isplitl [HS0]; · iexists _; iexact HS0
      iexists _; iexact HS1
    iexact HR
  iexact Hg

theorem sc0_zero (c : Dev nD) (h : 0 < cfg2.N) : (outsAt2 V c 0 h).2.1 = k2_pay6 (cfg2.grid.coords ⟨0, h⟩) (iblk2 V c 0 ⟨0, h⟩) (iblk2 V c 1 ⟨0, h⟩) (iblk2 V c 2 ⟨0, h⟩) (iblk2 V c 3 ⟨0, h⟩) k2_pay3 := rfl

theorem sc0_succ (c : Dev nD) (n : ℕ) (h : n + 1 < cfg2.N) : (outsAt2 V c (n + 1) h).2.1 = k2_pay6 (cfg2.grid.coords ⟨n + 1, h⟩) (iblk2 V c 0 ⟨n + 1, h⟩) (iblk2 V c 1 ⟨n + 1, h⟩) (iblk2 V c 2 ⟨n + 1, h⟩) (iblk2 V c 3 ⟨n + 1, h⟩) (outsAt2 V c n (Nat.lt_of_succ_lt h)).2.1 := rfl

theorem sc1_zero (c : Dev nD) (h : 0 < cfg2.N) : (outsAt2 V c 0 h).2.2 = k2_pay1 (k2_pay5 (cfg2.grid.coords ⟨0, h⟩) (iblk2 V c 3 ⟨0, h⟩)) k2_pay7 k2_pay4 (constant S64x128 .f32 0x00000000#32) := rfl

theorem sc1_succ (c : Dev nD) (n : ℕ) (h : n + 1 < cfg2.N) : (outsAt2 V c (n + 1) h).2.2 = k2_pay1 (k2_pay5 (cfg2.grid.coords ⟨n + 1, h⟩) (iblk2 V c 3 ⟨n + 1, h⟩)) k2_pay7 (outsAt2 V c n (Nat.lt_of_succ_lt h)).2.2 (constant S64x128 .f32 0x00000000#32) := rfl

theorem out_last (c : Dev nD) (h : 9 < cfg2.N) : (outsAt2 V c 9 h).1 = k2_pay2 (outsAt2 V c 9 h).2.1 (outsAt2 V c 9 h).2.2 (iblk2 V c 4 ⟨9, h⟩) (iblk2 V c 5 ⟨9, h⟩) := rfl

end Region2

end Cert.Kernel.Hand

end
-- ==== Proof.K.Fold.lean ====
import proofs.«428257_j47124381171999_2_alg».proof.Proof.K.R0
import proofs.«428257_j47124381171999_2_alg».proof.Proof.K.R1
import proofs.«428257_j47124381171999_2_alg».proof.Proof.K.R2
import proofs.«428257_j47124381171999_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.Kernel.Hand

open Idealize.ShloMosaic Idealize.ShloMosaic.TcCoe
open Idealize.ShloMosaic.Pipeline (Dat Cfg)
open Cert.Kernel Cert.Kernel.Gen

variable {F : FTy → Type} [FloatOps F]

/-- Off the output window's array a region's exit contents are its entry contents: an input window's `arrAt` is its
    entry array, and `withArrays` alters the windows' arrays only. -/
theorem withArrays_off {cfg : Cfg sig Λ₀} {c : Dev nD} (dat : Dat τ (Elt F) Unit ℕ (UR sig nD τ) ℕ cfg c)
    (V : Valuation τ sig (Elt F)) (hinj : Function.Injective (Pipeline.arrRef cfg.spec))
    (hA : ∀ w, dat.A w = V (Proc.devRef .tc (Pipeline.arrRef cfg.spec w))) (o : Fin cfg.W)
    (ho : ∀ w, w ≠ o → (cfg.win w).isOut = false) (b : Ref sig .tc) (hb : b ≠ Pipeline.arrRef cfg.spec o) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    exact (Pipeline.withArrays_arr _ hinj c V _ w).trans
      ((dat.arrAt_in w (ho w fun e => hb (by rw [e])) _).trans (hA w))
  · exact Pipeline.withArrays_of_ne _ c V _ b fun w e => h ⟨w, e⟩

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec0 c (W5 m ρ c) fun w => (dat0 (V5 m ρ) c).arrAt w cfg0.N
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  Eq.symm (Pipeline.withArrays_arr spec0 launch0.win.arr_inj c _ _ w)
theorem hrest0 (c : Dev nD) : ∀ b, b ∉ Finset.univ.image (Pipeline.arrRef spec0) → V6 m ρ c b = V5 m ρ c b :=
  fun b hb => Pipeline.withArrays_of_ne spec0 c _ _ b fun w e => hb (Finset.mem_image.mpr ⟨w, Finset.mem_univ _, e⟩)
theorem W6_main_v13 (c : Dev nD) : W6 m ρ c (Proc.devRef .tc main_v13) = (dat0 (V5 m ρ) c).arrAt 3 cfg0.N :=
  (hF0 m ρ c 3).symm
theorem W6_off (c : Dev nD) (b : Ref sig .tc) (hb : b ≠ main_v13) :
    W6 m ρ c (Proc.devRef .tc b) = W5 m ρ c (Proc.devRef .tc b) :=
  withArrays_off (dat0 (V5 m ρ) c) (W5 m ρ c) launch0.win.arr_inj (A_eq0 (V5 m ρ) c) 3 (by decide) b hb

abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec1 c (W7 m ρ c) fun w => (dat1 (V7 m ρ) c).arrAt w cfg1.N
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  Eq.symm (Pipeline.withArrays_arr spec1 launch1.win.arr_inj c _ _ w)
theorem hrest1 (c : Dev nD) : ∀ b, b ∉ Finset.univ.image (Pipeline.arrRef spec1) → V8 m ρ c b = V7 m ρ c b :=
  fun b hb => Pipeline.withArrays_of_ne spec1 c _ _ b fun w e => hb (Finset.mem_image.mpr ⟨w, Finset.mem_univ _, e⟩)
theorem W8_main_v24 (c : Dev nD) : W8 m ρ c (Proc.devRef .tc main_v24) = (dat1 (V7 m ρ) c).arrAt 5 cfg1.N :=
  (hF1 m ρ c 5).symm
theorem W8_off (c : Dev nD) (b : Ref sig .tc) (hb : b ≠ main_v24) :
    W8 m ρ c (Proc.devRef .tc b) = W7 m ρ c (Proc.devRef .tc b) :=
  withArrays_off (dat1 (V7 m ρ) c) (W7 m ρ c) launch1.win.arr_inj (A_eq1 (V7 m ρ) c) 5 (by decide) b hb

abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec2 c (W9 m ρ c) fun w => (dat2 (V9 m ρ) c).arrAt w cfg2.N
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  Eq.symm (Pipeline.withArrays_arr spec2 launch2.win.arr_inj c _ _ w)
theorem hrest2 (c : Dev nD) : ∀ b, b ∉ Finset.univ.image (Pipeline.arrRef spec2) → V10 m ρ c b = V9 m ρ c b :=
  fun b hb => Pipeline.withArrays_of_ne spec2 c _ _ b fun w e => hb (Finset.mem_image.mpr ⟨w, Finset.mem_univ _, e⟩)
theorem W10_main_v36 (c : Dev nD) : W10 m ρ c (Proc.devRef .tc main_v36) = (dat2 (V9 m ρ) c).arrAt 6 cfg2.N :=
  (hF2 m ρ c 6).symm
theorem W10_off (c : Dev nD) (b : Ref sig .tc) (hb : b ≠ main_v36) :
    W10 m ρ c (Proc.devRef .tc b) = W9 m ρ c (Proc.devRef .tc b) :=
  withArrays_off (dat2 (V9 m ρ) c) (W9 m ρ c) launch2.win.arr_inj (A_eq2 (V9 m ρ) c) 6 (by decide) b hb

abbrev mainArgs : List (Ref sig .tc) :=
  [main_arg0, main_arg1, main_arg2, main_arg3, main_arg4, main_arg5, main_arg6, main_arg7, main_arg8, main_arg9]

theorem mainArgs_unwritten : ∀ b ∈ mainArgs, b ≠ main_v36 ∧ b ∉ hostOps2_W ∧ b ≠ main_v24 ∧ b ∉ hostOps1_W ∧ b ≠ main_v13 ∧
    b ∉ hostOps0_4_W ∧ b ∉ hostOps0_3_W ∧ b ∉ hostOps0_2_W ∧ b ∉ hostOps0_1_W ∧ b ∉ hostOps0_W := by decide

/-- An argument ends as launched: no host stretch writes it and it is no region's output array, so the fold at its
    buffer walks back to the launch memory. -/
theorem W10_arg (c : Dev nD) (b : Ref sig .tc) (hb : b ∈ mainArgs) :
    W10 m ρ c (Proc.devRef .tc b) = m ((c : Thread nD τ).loc b) := by
  obtain ⟨h10, h9, h8, h7, h6, h5, h4, h3, h2, h1⟩ := mainArgs_unwritten b hb
  exact (W10_off m ρ c b h10).trans <| (StableHlo.after_of_writes_sub hostOps2 _ hostOps2_writes h9).trans <|
    (W8_off m ρ c b h8).trans <| (StableHlo.after_of_writes_sub hostOps1 _ hostOps1_writes h7).trans <|
    (W6_off m ρ c b h6).trans <| (StableHlo.after_of_writes_sub hostOps0_4 _ hostOps0_4_writes h5).trans <|
    (StableHlo.after_of_writes_sub hostOps0_3 _ hostOps0_3_writes h4).trans <|
    (StableHlo.after_of_writes_sub hostOps0_2 _ hostOps0_2_writes h3).trans <|
    (StableHlo.after_of_writes_sub hostOps0_1 _ hostOps0_1_writes h2).trans <|
    StableHlo.after_of_writes_sub hostOps0 _ hostOps0_writes h1

theorem W10_main_arg0 (c : Dev nD) : W10 m ρ c (Proc.devRef .tc main_arg0) = m ((c : Thread nD τ).loc main_arg0) :=
  W10_arg m ρ c _ (by decide)
theorem W10_main_arg1 (c : Dev nD) : W10 m ρ c (Proc.devRef .tc main_arg1) = m ((c : Thread nD τ).loc main_arg1) :=
  W10_arg m ρ c _ (by decide)
theorem W10_main_arg2 (c : Dev nD) : W10 m ρ c (Proc.devRef .tc main_arg2) = m ((c : Thread nD τ).loc main_arg2) :=
  W10_arg m ρ c _ (by decide)
theorem W10_main_arg3 (c : Dev nD) : W10 m ρ c (Proc.devRef .tc main_arg3) = m ((c : Thread nD τ).loc main_arg3) :=
  W10_arg m ρ c _ (by decide)
theorem W10_main_arg4 (c : Dev nD) : W10 m ρ c (Proc.devRef .tc main_arg4) = m ((c : Thread nD τ).loc main_arg4) :=
  W10_arg m ρ c _ (by decide)
theorem W10_main_arg5 (c : Dev nD) : W10 m ρ c (Proc.devRef .tc main_arg5) = m ((c : Thread nD τ).loc main_arg5) :=
  W10_arg m ρ c _ (by decide)
theorem W10_main_arg6 (c : Dev nD) : W10 m ρ c (Proc.devRef .tc main_arg6) = m ((c : Thread nD τ).loc main_arg6) :=
  W10_arg m ρ c _ (by decide)
theorem W10_main_arg7 (c : Dev nD) : W10 m ρ c (Proc.devRef .tc main_arg7) = m ((c : Thread nD τ).loc main_arg7) :=
  W10_arg m ρ c _ (by decide)
theorem W10_main_arg8 (c : Dev nD) : W10 m ρ c (Proc.devRef .tc main_arg8) = m ((c : Thread nD τ).loc main_arg8) :=
  W10_arg m ρ c _ (by decide)
theorem W10_main_arg9 (c : Dev nD) : W10 m ρ c (Proc.devRef .tc main_arg9) = m ((c : Thread nD τ).loc main_arg9) :=
  W10_arg m ρ c _ (by decide)

end Cert.Kernel.Hand

end
-- ==== Proof.K.Run.lean ====
import proofs.«428257_j47124381171999_2_alg».proof.Proof.K.Fold
import proofs.«428257_j47124381171999_2_alg».proof.Proof.Gen.Kernel.Regions
import Idealize.ShloMosaic.Lib.Pipeline.RegionsLoop
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 3) → (c : Dev nD) → Dat τ (Elt F) Unit ℕ (UR sig nD τ) ℕ (Pipeline.pin (pcfgs (F := F)) adm p) c
  | ⟨0, _⟩ => dat0 (V5 m ρ)
  | ⟨1, _⟩ => dat1 (V7 m ρ)
  | ⟨2, _⟩ => dat2 (V9 m ρ)

theorem pdats_plain : ∀ p c, (∀ w, (pdats m ρ p c).share w = fullShare) ∧ (∀ t, (pdats m ρ p c).owed t = 0)
      ∧ ∀ x, x ∈ (pdats m ρ p c).recorded 0
  | ⟨0, _⟩, _ | ⟨1, _⟩, _ | ⟨2, _⟩, _ => ⟨Pipeline.Dat.share_full _ fun _ => rfl, fun _ => rfl, fun _ => trivial⟩

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev stateAt (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) W R

-- The buffers held at W split into the region's arrays and the rest; W' has the final arrays and agrees with W elsewhere.
set_option backward.isDefEq.respectTransparency.types false in
def regionSeg (p : Fin 3) (lf : Pipeline.LaunchFacts (nD := nD) (τ := τ) cfgs p) (W W' : Dev nD → Valuation τ sig (Elt F))
    (hb : ∀ c, BodyObligation (pdats m ρ p c) (defs₀ (F := F)) Variants.none () Set.univ)
    (hA : ∀ c w, (pdats m ρ p c).A w = W c (Pipeline.arrRef (cfgs p).spec w))
    (hF : ∀ c w, (pdats m ρ p c).arrAt w (cfgs p).N = W' c (Pipeline.arrRef (cfgs p).spec w))
    (hrest : ∀ c b, b ∉ Finset.univ.image (Pipeline.arrRef (cfgs p).spec) → W' c b = W c b)
    (h₀ : ∀ c, (Pipeline.ΦA (cfgs p).spec c : sProp 𝕄) ⊢ (pdats m ρ p c).Φ 0)
    (hₙ : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_plain m ρ p c).2.1
  pre := stateAt W
  post := stateAt W'
  X c := iprop(∃ r, prngReg c r)
  Y c := iprop(∃ r, prngReg c r)
  Z c := Pipeline.unscopedRest (cfgs p).spec c fun b => W c b
  hentry c := by
    obtain ⟨hs, hz, hr⟩ := pdats_plain m ρ p c
    have hsplit := Pipeline.arrays_of_unscopedBufs (p := p) (pcfgs (F := F)) adm (pdats m ρ) lf.win lf.arr_whole c hs (fun b => W c b) (hA c)
    rw [Pipeline.unscopedBufs_held] at hsplit
    rw [Pipeline.ownSems0_none]
    unfold Pipeline.prefHeld Pipeline.Dat.owesAt Pipeline.owesWithin
    rw [hz, show (Finset.univ : Finset (Fin 0)) = ∅ from rfl, BI.bigSep_empty]
    iintro ⟨⟨Hub, Hp, %S, HO⟩, -, -⟩
    ihave H := hsplit $$ Hub
    icases H with ⟨Ha, Hrest⟩
    imodintro
    isplitl [Ha]; · iexact Ha
    isplitr; · iempintro
    isplitl [HO]
    · iexists S; isplitr; · ipureintro; exact fun x _ => Or.inl (hr x)
      iexact HO
    isplitl [Hp] <;> iassumption
  hin c := by
    refine .trans ?_ (h₀ c)
    unfold Pipeline.ΦA
    iintro ⟨Hp, -, Hr⟩
    isplitl [Hr] <;> iassumption
  hout c := by
    rw [Pipeline.ownSems0_none]
    refine (hₙ c).trans ?_
    unfold Pipeline.ΦA
    iintro ⟨Hr, Hp⟩
    isplitl [Hp]; · iexact Hp
    isplitr; · iempintro
    iexact Hr
  hexit c := by
    obtain ⟨hs, hz, -⟩ := pdats_plain m ρ p c
    have hjoin := Pipeline.unscopedBufs_of_arrays (p := p) (pcfgs (F := F)) adm lf.win lf.arr_whole c (pdats m ρ) hs
      (fun b => W c b) (fun b => W' c b) ((pdats m ρ p c).arrAt · (cfgs p).N) (hF c) (hrest c)
    rw [Pipeline.unscopedBufs_held] at hjoin
    unfold Pipeline.Dat.owesAt Pipeline.owesWithin
    rw [hz]
    iintro ⟨Ha, ⟨%S, -, HO⟩, HY, Hrest⟩
    imodintro
    isplitl [Ha Hrest]
    · iapply hjoin; isplitl [Ha] <;> iassumption
    isplitl [HY]; · iexact HY
    iexists S; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (regionSeg m ρ 0 launch0 (W5 m ρ) (W6 m ρ) (body_obligation0 (V5 m ρ)) (A_eq0 (V5 m ρ)) (hF0 m ρ) (hrest0 m ρ) (fun _ => .rfl) fun _ => .rfl),
    .host (hseg hostOps1 hostOps1_sub hostOps1_fresh (W6 m ρ)),
    .region (regionSeg m ρ 1 launch1 (W7 m ρ) (W8 m ρ) (body_obligation1 (V7 m ρ)) (A_eq1 (V7 m ρ)) (hF1 m ρ) (hrest1 m ρ) (fun _ => .rfl) fun _ => .rfl),
    .host (hseg hostOps2 hostOps2_sub hostOps2_fresh (W8 m ρ)),
    .region (regionSeg m ρ 2 launch2 (W9 m ρ) (W10 m ρ) (body_obligation2 (V9 m ρ)) (A_eq2 (V9 m ρ)) (hF2 m ρ) (hrest2 m ρ) (hin2 (V9 m ρ)) (hout2 (V9 m ρ))) ]

theorem main_run (c : Dev nD) : main (F := F) c = Pipeline.Seg.run (segs m ρ) := (main_chain c).trans (by chain_rfl)

-- The ten segments chain from the launch contents to the last; reading the final state gives every buffer's value.
set_option backward.isDefEq.respectTransparency.types false in
theorem run_all : θ_run defs (onTc (τ := τ) (main (F := F))) ⟨m, fun _ => 0, ρ⟩ (fun r => ∀ (c : Dev nD) (b : Ref sig .tc),
      ¬ (Proc.devRef .tc b : DevRef τ sig).isScoped → r.2.mem ((c : Thread nD τ).loc b) = W10 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (Entails.of_eq (BI.bigSep_emp_const _).symm); iempintro)
    (T₀ := stateAt (W0 m ρ)) (Tₙ := fun c => iprop(StableHlo.held (c : Thread nD τ) (Pipeline.ucRefs τ sig) (W10 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      erw [Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c b hb => h c _ (Finset.mem_filter.mpr ⟨StableHlo.devRef_mem_tcRefs b, hb⟩))

-- The fold walks each argument's last contents back to its launch contents.
theorem run_result : θ_run defs (onTc (τ := τ) (main (F := F))) ⟨m, fun _ => 0, ρ⟩ (fun r => ∀ c : Dev nD,
      r.2.mem ((c.tc : Thread nD τ).loc main_v36) = W10 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (by decide),
     (h c _ (by decide)).trans (W10_main_arg0 m ρ c),
     (h c _ (by decide)).trans (W10_main_arg1 m ρ c),
     (h c _ (by decide)).trans (W10_main_arg2 m ρ c),
     (h c _ (by decide)).trans (W10_main_arg3 m ρ c),
     (h c _ (by decide)).trans (W10_main_arg4 m ρ c),
     (h c _ (by decide)).trans (W10_main_arg5 m ρ c),
     (h c _ (by decide)).trans (W10_main_arg6 m ρ c),
     (h c _ (by decide)).trans (W10_main_arg7 m ρ c),
     (h c _ (by decide)).trans (W10_main_arg8 m ρ c),
     (h c _ (by decide)).trans (W10_main_arg9 m ρ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_result m ρ)

end Cert.Kernel.Hand

end
-- ==== Proof.KI.R0.lean ====
import proofs.«428257_j47124381171999_2_alg».proof.Proof.Gen.KernelIdeal.Launch
import proofs.«428257_j47124381171999_2_alg».proof.Proof.Gen.KernelIdeal.Skeleton
import proofs.«428257_j47124381171999_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.ProofMode Idealize.SL.Sem
open Idealize.ShloMosaic.Pipeline (Dat BodyObligation)

variable {F : FTy → Type} [FloatOps F]

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

def out0_3 (x0 : Vec F S5000x128 .f32) (x1 : Vec F S128x128 .f32) (x2 : Vec F S5000x1 .f32) : Vec F S5000x128 .f32 :=
  View.canon [⟨r0_0, k0_pay1 (View.ld x0 r0_0) (View.ld x1 r0_1) (View.ld x2 r0_2)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = out0_3 (iblk0 V c 0 t) (iblk0 V c 1 t) (iblk0 V c 2 t) := by dsimp only [dat0]

-- the body leaves every input block as it found it, so at each point it finds the block of the entry array
theorem before0 (c : Dev nD) (t : Fin cfg0.N) : (∀ d, (dat0 V c).before 0 t d = iblk0 V c 0 t)
    ∧ (∀ d, (dat0 V c).before 1 t d = iblk0 V c 1 t) ∧ ∀ d, (dat0 V c).before 2 t d = iblk0 V c 2 t := by
  refine ⟨?_, ?_, ?_⟩ <;> exact (dat0 V c).before_in_eq_fetched _ rfl (fun _ => rfl) (fun _ _ _ => rfl) (fun _ => rfl) t

-- one store over the whole output block: the block afterwards is a function of the three input blocks alone
theorem body_obligation0 (c : Dev nD) : BodyObligation (dat0 (F := F) V c) (defs₀ (F := F)) Variants.none () Set.univ := fun t => by
  rw [bigSep_W0, bigSep_W0, show (dat0 V c).owesAt () t.succ = (dat0 V c).owesAt () t.castSucc from rfl]
  simp only [before0 V c t]
  sl_whnfR [defs₀, Defs.onTc]
  simp only [cc0__prep_matmul_kernel_eq_skeleton]; unfold cc0__prep_matmul_kernel_skel
  dsimp only [dat0]
  unfold owns
  iintro ⟨HΦ, Ho, ⟨%d0, %f0, %hf0, H0⟩, ⟨%d1, %f1, %hf1, H1⟩, ⟨%d2, %f2, %hf2, H2⟩, ⟨%d3, %f3, -, H3⟩⟩
  rw [← hf0, ← hf1, ← hf2]
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S5000x128.size (by rfl))

end Region0

end Cert.KernelIdeal.Hand

end
-- ==== Proof.KI.R1.lean ====
import proofs.«428257_j47124381171999_2_alg».proof.Proof.Gen.KernelIdeal.Launch
import proofs.«428257_j47124381171999_2_alg».proof.Proof.Gen.KernelIdeal.Skeleton
import proofs.«428257_j47124381171999_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.ProofMode Idealize.SL.Sem
open Idealize.ShloMosaic.Pipeline (Dat BodyObligation)
open Cert.KernelIdeal Cert.KernelIdeal.Gen

variable {F : FTy → Type} [FloatOps F]

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S128 := Rect.unit (s := S128) ![0] S128.size inb_S128_S128_0
abbrev r1_3 : Rect S128x128 := Rect.unit (s := S128x128) ![0, 0] S128x128.size inb_S128x128_S128x128_0_0

def out1_5 (x0 : Vec F S5000x128 .f32) (x1 : Vec F S5000x1 .f32) (x2 : Vec F S128 .f32) (x3 : Vec F S128x128 .f32) (x4 : Vec F S5000x1 .f32) : Vec F S5000x128 .f32 :=
  View.canon [⟨r1_0, k1_pay1 (View.ld x0 r1_0) (View.ld x1 r1_1) (View.ld x2 r1_2) (View.ld x3 r1_3) (View.ld x4 r1_1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl

theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

-- the body leaves every input block as it found it, so at each point it finds the block of the entry array
theorem before1 (c : Dev nD) (t : Fin cfg1.N) : (∀ d, (dat1 V c).before 0 t d = iblk1 V c 0 t)
    ∧ (∀ d, (dat1 V c).before 1 t d = iblk1 V c 1 t) ∧ (∀ d, (dat1 V c).before 2 t d = iblk1 V c 2 t)
    ∧ (∀ d, (dat1 V c).before 3 t d = iblk1 V c 3 t) ∧ ∀ d, (dat1 V c).before 4 t d = iblk1 V c 4 t := by
  refine ⟨?_, ?_, ?_, ?_, ?_⟩ <;> exact (dat1 V c).before_in_eq_fetched _ rfl (fun _ => rfl) (fun _ _ _ => rfl) (fun _ => rfl) t

-- one store over the whole output block: the block afterwards is a function of the five input blocks alone
theorem body_obligation1 (c : Dev nD) : BodyObligation (dat1 (F := F) V c) (defs₀ (F := F)) Variants.none () Set.univ := fun t => by
  rw [bigSep_W1, bigSep_W1, show (dat1 V c).owesAt () t.succ = (dat1 V c).owesAt () t.castSucc from rfl]
  simp only [before1 V c t]
  sl_whnfR [defs₀, Defs.onTc]
  simp only [cc1__epi_prep_kernel_eq_skeleton]; unfold cc1__epi_prep_kernel_skel
  dsimp only [dat1]
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [← hf0, ← hf1, ← hf2, ← hf3, ← hf4]
  sl_exec
  sl_step
  iframe HΦ Ho
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (View.cover_of_tiled _ S5000x128.size (by rfl))

end Region1

end Cert.KernelIdeal.Hand

end
-- ==== Proof.KI.R2.lean ====
import proofs.«428257_j47124381171999_2_alg».proof.Proof.Gen.KernelIdeal.Launch
import proofs.«428257_j47124381171999_2_alg».proof.Proof.Gen.KernelIdeal.Skeleton
import proofs.«428257_j47124381171999_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem offs2_zero : (![0, 0] : Fin 2 → Nat) = fun _ => 0 := funext fun a => by fin_cases a <;> rfl
theorem offs1_zero : (![0] : Fin 1 → Nat) = fun _ => 0 := funext fun a => by fin_cases a; rfl

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

end Region2

abbrev cond2_0 (i : grid2.Coords) : Prop := (Scalar.cmpi .ne (Scalar.extui (Scalar.cmpi .eq (BitVec.ofNat 32 (i 0).val) 0#32)) 0#32) = 1#1

theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1

theorem hcond2_1 : ∀ t : Fin cfg2.N, cond2_1 (grid2.coords t) ↔ t.val = 9 :=
  (by decide +kernel : ∀ t : Fin grid2.N, cond2_1 (grid2.coords t) ↔ t.val = 9)

theorem idleAt2_6 : ∀ t : Fin cfg2.N, ¬cond2_1 (grid2.coords t) → idle2 6 (grid2.coords t) = true := by decide +kernel

theorem noFlush2_6 : ∀ t : Fin cfg2.N, ¬cond2_1 (grid2.coords t) → (win2 6).flush t = false := by decide +kernel

theorem liveAt2_6 : ∀ t : Fin cfg2.N, cond2_1 (grid2.coords t) → idle2 6 (grid2.coords t) = false := by decide +kernel

abbrev scM2_0 : Memref sig .tc .vmem S64x128 .f32 := Memref.whole cc2_scratch0
abbrev scM2_1 : Memref sig .tc .vmem S64x128 .f32 := Memref.whole cc2_scratch1

-- Everything the call does not touch, kept as one unopened resource.
def rest2 (c : Dev nD) : sProp 𝕄 := Pipeline.scopedRestBut spec2 c [cc2_scratch0, cc2_scratch1]

-- The entry resource, split into the two accumulators and the rest.
theorem PhiA2_eq (c : Dev nD) :
    (Pipeline.ΦA spec2 c : sProp 𝕄)
      = iprop((((∃ d, owns (c : Thread nD τ) scM2_0 fullShare d) ∗ (∃ d, owns (c : Thread nD τ) scM2_1 fullShare d)) ∗ rest2 (F := F) c) ∗ (∃ r, prngReg c r)) := by
  unfold Pipeline.ΦA rest2
  rw [Pipeline.scopedRest_split_of_list spec2 c [cc2_scratch0, cc2_scratch1] (by decide) (by decide)]
  simp only [scM2_0, scM2_1, owns_whole]; try rfl

section Region2
variable (V : (c : Dev nD) → (b : Ref sig .tc) → Buf (Elt F) ((c : Thread nD τ).loc b))

-- One point's update: (the logits of the updated accumulators, the updated sum, the updated count).
def step2 (c : Dev nD) (t : Fin cfg2.N) (s0 s1 : Vec F S64x128 .f32) :
    Vec F S64x10 .f32 × Vec F S64x128 .f32 × Vec F S64x128 .f32 :=
  (k2_pay2 (k2_pay6 (grid2.coords t) (iblk2 V c 0 t) (iblk2 V c 1 t) (iblk2 V c 2 t) (iblk2 V c 3 t) s0)
      (k2_pay1 (k2_pay5 (grid2.coords t) (iblk2 V c 3 t)) k2_pay7 s1 (constant S64x128 .f32 0x00000000#32))
      (iblk2 V c 4 t) (iblk2 V c 5 t),
    k2_pay6 (grid2.coords t) (iblk2 V c 0 t) (iblk2 V c 1 t) (iblk2 V c 2 t) (iblk2 V c 3 t) s0,
    k2_pay1 (k2_pay5 (grid2.coords t) (iblk2 V c 3 t)) k2_pay7 s1 (constant S64x128 .f32 0x00000000#32))

-- After point n: the first point updates zeros, a later point what the point before left.
def outsAt2 (c : Dev nD) : (n : ℕ) → n < cfg2.N → Vec F S64x10 .f32 × Vec F S64x128 .f32 × Vec F S64x128 .f32
  | 0, h => step2 V c ⟨0, h⟩ k2_pay3 k2_pay4
  | n + 1, h => step2 V c ⟨n + 1, h⟩ (outsAt2 c n (Nat.lt_of_succ_lt h)).2.1 (outsAt2 c n (Nat.lt_of_succ_lt h)).2.2

theorem outsAt2_first (c : Dev nD) (t : Fin cfg2.N) (h0 : t.val = 0) :
    outsAt2 V c t.val t.isLt = step2 V c t k2_pay3 k2_pay4 := by
  obtain ⟨n, hn⟩ := t
  cases n with
  | zero => rfl
  | succ n => exact absurd h0 (Nat.succ_ne_zero n)

theorem outsAt2_later (c : Dev nD) (t : Fin cfg2.N) (h0 : ¬t.val = 0) :
    outsAt2 V c t.val t.isLt = step2 V c t (outsAt2 V c (t.val - 1) (Nat.lt_of_le_of_lt (Nat.sub_le _ _) t.isLt)).2.1
      (outsAt2 V c (t.val - 1) (Nat.lt_of_le_of_lt (Nat.sub_le _ _) t.isLt)).2.2 := by
  obtain ⟨n, hn⟩ := t
  cases n with
  | zero => exact absurd rfl h0
  | succ n => rfl

-- The invariant: after a point each accumulator holds that point's update; before the first, anything.
def PhiS (c : Dev nD) : (n : ℕ) → n ≤ cfg2.N → sProp 𝕄
  | 0, _ => Pipeline.ΦA spec2 c
  | n + 1, hn => iprop(rest2 (F := F) c ∗ owns (c : Thread nD τ) scM2_0 fullShare ((outsAt2 V c n hn).2.1)
      ∗ owns (c : Thread nD τ) scM2_1 fullShare ((outsAt2 V c n hn).2.2) ∗ (∃ r, prngReg c r))

theorem PhiS_zero (c : Dev nD) (n : ℕ) (h : n ≤ cfg2.N) (hz : n = 0) : PhiS V c n h = Pipeline.ΦA spec2 c := by
  subst hz; rfl

theorem PhiS_pos (c : Dev nD) (n : ℕ) (h : n ≤ cfg2.N) (hz : n ≠ 0) :
    PhiS V c n h = iprop(rest2 (F := F) c ∗ owns (c : Thread nD τ) scM2_0 fullShare ((outsAt2 V c (n - 1) (by omega)).2.1)
      ∗ owns (c : Thread nD τ) scM2_1 fullShare ((outsAt2 V c (n - 1) (by omega)).2.2) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := rfl

theorem after2_6 (c : Dev nD) (t : Fin cfg2.N) : (dat2 V c).after 6 t = (outsAt2 V c t.val t.isLt).1 := rfl

theorem before2 (c : Dev nD) (t : Fin cfg2.N) : (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ ∀ d, (dat2 V c).before 5 t d = iblk2 V c 5 t := by
  refine ⟨?_, ?_, ?_, ?_, ?_, ?_⟩ <;> exact (dat2 V c).before_in_eq_fetched _ rfl (fun _ => rfl) (fun _ _ _ => rfl) (fun _ => rfl) t

set_option maxHeartbeats 1000000 in
theorem body_obligation2 (c : Dev nD) : BodyObligation (dat2 (F := F) V c) (defs₀ (F := F)) Variants.none () Set.univ := fun t => by
  rw [bigSep_W2, bigSep_W2, show (dat2 V c).owesAt () t.succ = (dat2 V c).owesAt () t.castSucc from rfl,
    show (dat2 V c).Φ t.succ = iprop(rest2 (F := F) c ∗ owns (c : Thread nD τ) scM2_0 fullShare ((outsAt2 V c t.val t.isLt).2.1)
      ∗ owns (c : Thread nD τ) scM2_1 fullShare ((outsAt2 V c t.val t.isLt).2.2) ∗ (∃ r, prngReg c r)) from rfl,
    show (dat2 V c).Φ t.castSucc = PhiS V c t.val (Nat.le_of_lt t.isLt) from rfl]
  simp only [before2 V c t]
  sl_whnfR [defs₀, Defs.onTc]
  simp only [cc2__pool_cls_kernel_eq_skeleton]; unfold cc2__pool_cls_kernel_skel
  dsimp only [dat2]
  by_cases h1 : t.val = 9
  · have h0 : ¬t.val = 0 := by omega
    have hc0 : ¬cond2_0 (grid2.coords t) := fun h => h0 ((hcond2_0 t).mp h)
    have hc1 : cond2_1 (grid2.coords t) := (hcond2_1 t).mpr h1
    rw [liveAt2_6 t hc1, outsAt2_later V c t h0, PhiS_pos V c _ _ h0]
    unfold step2; (try dsimp only)
    unfold owns
    iintro ⟨⟨HR, ⟨%fs0, %hfs0, HS0⟩, ⟨%fs1, %hfs1, HS1⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩⟩
    rw [← hf0, ← hf1, ← hf2, ← hf3, ← hf4, ← hf5, ← hfs0, ← hfs1]
    sl_exec (disch := first | exact hc0 | exact hc1)
    sl_step
    isplitl [HR HS0 HS1 Hg]
    · isplitl [HR]; · iexact HR
      isplitl [HS0]
      · iexists _; isplitr
        swap; · iexact HS0
        ipureintro
        refine (View.read_writes_eq_canon _ _ _ (View.cover_of_tiledL _ S64x128.size (by sl_kernel_rfl))).trans ?_
        sl_unfold_words
        rw [View.canon_unit_zero offs2_zero]
        simp only [View.readAt_eq_ld, View.ld_unit_zero (S := S5000x128) offs2_zero, View.ld_unit_zero (S := S5000x1) offs2_zero,
          View.ld_unit_zero (S := S128) offs1_zero, View.ld_unit_zero (S := S64x128) offs2_zero]
      isplitl [HS1]
      · iexists _; isplitr
        swap; · iexact HS1
        ipureintro
        refine (View.read_writes_eq_canon _ _ _ (View.cover_of_tiledL _ S64x128.size (by sl_kernel_rfl))).trans ?_
        sl_unfold_words
        rw [View.canon_unit_zero offs2_zero]
        simp only [View.readAt_eq_ld, View.ld_unit_zero (S := S5000x128) offs2_zero, View.ld_unit_zero (S := S5000x1) offs2_zero,
          View.ld_unit_zero (S := S128) offs1_zero, View.ld_unit_zero (S := S64x128) offs2_zero]
      iexact Hg
    isplitl [Ho]; · iexact Ho
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    refine (View.read_writes_eq_canon _ _ _ (View.cover_of_tiledL _ S64x10.size (by sl_kernel_rfl))).trans ?_
    sl_unfold_words
    rw [View.canon_unit_zero offs2_zero]
    simp only [View.readCov_unit_zero (S := S64x128) _ offs2_zero, View.readAt_eq_ld, View.ld_unit_zero (S := S5000x128) offs2_zero, View.ld_unit_zero (S := S5000x1) offs2_zero,
          View.ld_unit_zero (S := S128) offs1_zero, View.ld_unit_zero (S := S64x128) offs2_zero,
      View.ld_unit_zero (S := S128x10) offs2_zero, View.ld_unit_zero (S := S10) offs1_zero]
  · have hc1 : ¬cond2_1 (grid2.coords t) := fun h => h1 ((hcond2_1 t).mp h)
    rw [idleAt2_6 t hc1, noFlush2_6 t hc1]
    by_cases h0 : t.val = 0
    · have hc0 : cond2_0 (grid2.coords t) := (hcond2_0 t).mpr h0
      rw [outsAt2_first V c t h0, PhiS_zero V c _ _ h0, PhiA2_eq]
      unfold step2; (try dsimp only)
      unfold owns
      iintro ⟨⟨⟨⟨⟨%ds0, %fs0, -, HS0⟩, ⟨%ds1, %fs1, -, HS1⟩⟩, HR⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, H6⟩
      rw [← hf0, ← hf1, ← hf2, ← hf3, ← hf4, ← hf5]
      sl_exec (disch := first | exact hc0 | exact hc1)
      sl_step
      isplitl [HR HS0 HS1 Hg]
      · isplitl [HR]; · iexact HR
        isplitl [HS0]
        · iexists _; isplitr
          swap; · iexact HS0
          ipureintro
          refine (View.read_writes_eq_canon _ _ _ (View.cover_of_tiledL _ S64x128.size (by sl_kernel_rfl))).trans ?_
          sl_unfold_words
          rw [View.canon_cons_unit_zero (S := S64x128) offs2_zero, View.readCov_unit_zero (S := S64x128) _ offs2_zero]
          simp only [View.readAt_eq_ld, View.ld_unit_zero (S := S5000x128) offs2_zero, View.ld_unit_zero (S := S5000x1) offs2_zero,
            View.ld_unit_zero (S := S128) offs1_zero, View.ld_unit_zero (S := S64x128) offs2_zero]
        isplitl [HS1]
        · iexists _; isplitr
          swap; · iexact HS1
          ipureintro
          refine (View.read_writes_eq_canon _ _ _ (View.cover_of_tiledL _ S64x128.size (by sl_kernel_rfl))).trans ?_
          sl_unfold_words
          rw [View.canon_cons_unit_zero (S := S64x128) offs2_zero, View.readCov_unit_zero (S := S64x128) _ offs2_zero]
          simp only [View.readAt_eq_ld, View.ld_unit_zero (S := S5000x128) offs2_zero, View.ld_unit_zero (S := S5000x1) offs2_zero,
            View.ld_unit_zero (S := S128) offs1_zero, View.ld_unit_zero (S := S64x128) offs2_zero]
        iexact Hg
      isplitl [Ho]; · iexact Ho
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      iexact H6
    · have hc0 : ¬cond2_0 (grid2.coords t) := fun h => h0 ((hcond2_0 t).mp h)
      rw [outsAt2_later V c t h0, PhiS_pos V c _ _ h0]
      unfold step2; (try dsimp only)
      unfold owns
      iintro ⟨⟨HR, ⟨%fs0, %hfs0, HS0⟩, ⟨%fs1, %hfs1, HS1⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, H6⟩
      rw [← hf0, ← hf1, ← hf2, ← hf3, ← hf4, ← hf5, ← hfs0, ← hfs1]
      sl_exec (disch := first | exact hc0 | exact hc1)
      sl_step
      isplitl [HR HS0 HS1 Hg]
      · isplitl [HR]; · iexact HR
        isplitl [HS0]
        · iexists _; isplitr
          swap; · iexact HS0
          ipureintro
          refine (View.read_writes_eq_canon _ _ _ (View.cover_of_tiledL _ S64x128.size (by sl_kernel_rfl))).trans ?_
          sl_unfold_words
          rw [View.canon_unit_zero offs2_zero]
          simp only [View.readAt_eq_ld, View.ld_unit_zero (S := S5000x128) offs2_zero, View.ld_unit_zero (S := S5000x1) offs2_zero,
            View.ld_unit_zero (S := S128) offs1_zero, View.ld_unit_zero (S := S64x128) offs2_zero]
        isplitl [HS1]
        · iexists _; isplitr
          swap; · iexact HS1
          ipureintro
          refine (View.read_writes_eq_canon _ _ _ (View.cover_of_tiledL _ S64x128.size (by sl_kernel_rfl))).trans ?_
          sl_unfold_words
          rw [View.canon_unit_zero offs2_zero]
          simp only [View.readAt_eq_ld, View.ld_unit_zero (S := S5000x128) offs2_zero, View.ld_unit_zero (S := S5000x1) offs2_zero,
            View.ld_unit_zero (S := S128) offs1_zero, View.ld_unit_zero (S := S64x128) offs2_zero]
        iexact Hg
      isplitl [Ho]; · iexact Ho
      isplitl [H0]
      · iexists f0; isplitr; · ipureintro; rfl
        iexact H0
      isplitl [H1]
      · iexists f1; isplitr; · ipureintro; rfl
        iexact H1
      isplitl [H2]
      · iexists f2; isplitr; · ipureintro; rfl
        iexact H2
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      iexact H6

theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

-- After the last point the invariant gives the launch's back: the accumulators' contents are forgotten.
theorem hout2 (c : Dev nD) : (dat2 V c).Φ (Fin.last cfg2.N) ⊢ Pipeline.ΦA spec2 c := by
  rw [show (dat2 V c).Φ (Fin.last cfg2.N) = PhiS V c (Fin.last cfg2.N).val (Nat.le_of_lt_succ (Fin.last cfg2.N).isLt) from rfl,
    PhiS_pos V c _ _ (by rw [Fin.val_last]; have : cfg2.N = 10 := N_2; omega)]
  rw [PhiA2_eq]
  iintro ⟨HR, HS0, HS1, Hg⟩
  isplitl [HR HS0 HS1]
  · isplitl [HS0 HS1]
    · isplitl [HS0]; · iexists _; iexact HS0
      iexists _; iexact HS1
    iexact HR
  iexact Hg

theorem sc0_zero (c : Dev nD) (h : 0 < cfg2.N) : (outsAt2 V c 0 h).2.1 = k2_pay6 (cfg2.grid.coords ⟨0, h⟩) (iblk2 V c 0 ⟨0, h⟩) (iblk2 V c 1 ⟨0, h⟩) (iblk2 V c 2 ⟨0, h⟩) (iblk2 V c 3 ⟨0, h⟩) k2_pay3 := rfl

theorem sc0_succ (c : Dev nD) (n : ℕ) (h : n + 1 < cfg2.N) : (outsAt2 V c (n + 1) h).2.1 = k2_pay6 (cfg2.grid.coords ⟨n + 1, h⟩) (iblk2 V c 0 ⟨n + 1, h⟩) (iblk2 V c 1 ⟨n + 1, h⟩) (iblk2 V c 2 ⟨n + 1, h⟩) (iblk2 V c 3 ⟨n + 1, h⟩) (outsAt2 V c n (Nat.lt_of_succ_lt h)).2.1 := rfl

theorem sc1_zero (c : Dev nD) (h : 0 < cfg2.N) : (outsAt2 V c 0 h).2.2 = k2_pay1 (k2_pay5 (cfg2.grid.coords ⟨0, h⟩) (iblk2 V c 3 ⟨0, h⟩)) k2_pay7 k2_pay4 (constant S64x128 .f32 0x00000000#32) := rfl

theorem sc1_succ (c : Dev nD) (n : ℕ) (h : n + 1 < cfg2.N) : (outsAt2 V c (n + 1) h).2.2 = k2_pay1 (k2_pay5 (cfg2.grid.coords ⟨n + 1, h⟩) (iblk2 V c 3 ⟨n + 1, h⟩)) k2_pay7 (outsAt2 V c n (Nat.lt_of_succ_lt h)).2.2 (constant S64x128 .f32 0x00000000#32) := rfl

theorem out_last (c : Dev nD) (h : 9 < cfg2.N) : (outsAt2 V c 9 h).1 = k2_pay2 (outsAt2 V c 9 h).2.1 (outsAt2 V c 9 h).2.2 (iblk2 V c 4 ⟨9, h⟩) (iblk2 V c 5 ⟨9, h⟩) := rfl

end Region2

end Cert.KernelIdeal.Hand

end
-- ==== Proof.KI.Fold.lean ====
import proofs.«428257_j47124381171999_2_alg».proof.Proof.KI.R0
import proofs.«428257_j47124381171999_2_alg».proof.Proof.KI.R1
import proofs.«428257_j47124381171999_2_alg».proof.Proof.KI.R2
import proofs.«428257_j47124381171999_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring

noncomputable section

namespace Cert.KernelIdeal.Hand

open Idealize.ShloMosaic Idealize.ShloMosaic.TcCoe
open Idealize.ShloMosaic.Pipeline (Dat Cfg)
open Cert.KernelIdeal Cert.KernelIdeal.Gen

variable {F : FTy → Type} [FloatOps F]

/-- Off the output window's array a region's exit contents are its entry contents: an input window's `arrAt` is its
    entry array, and `withArrays` alters the windows' arrays only. -/
theorem withArrays_off {cfg : Cfg sig Λ₀} {c : Dev nD} (dat : Dat τ (Elt F) Unit ℕ (UR sig nD τ) ℕ cfg c)
    (V : Valuation τ sig (Elt F)) (hinj : Function.Injective (Pipeline.arrRef cfg.spec))
    (hA : ∀ w, dat.A w = V (Proc.devRef .tc (Pipeline.arrRef cfg.spec w))) (o : Fin cfg.W)
    (ho : ∀ w, w ≠ o → (cfg.win w).isOut = false) (b : Ref sig .tc) (hb : b ≠ Pipeline.arrRef cfg.spec o) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    exact (Pipeline.withArrays_arr _ hinj c V _ w).trans
      ((dat.arrAt_in w (ho w fun e => hb (by rw [e])) _).trans (hA w))
  · exact Pipeline.withArrays_of_ne _ c V _ b fun w e => h ⟨w, e⟩

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec0 c (W5 m ρ c) fun w => (dat0 (V5 m ρ) c).arrAt w cfg0.N
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  Eq.symm (Pipeline.withArrays_arr spec0 launch0.win.arr_inj c _ _ w)
theorem hrest0 (c : Dev nD) : ∀ b, b ∉ Finset.univ.image (Pipeline.arrRef spec0) → V6 m ρ c b = V5 m ρ c b :=
  fun b hb => Pipeline.withArrays_of_ne spec0 c _ _ b fun w e => hb (Finset.mem_image.mpr ⟨w, Finset.mem_univ _, e⟩)
theorem W6_main_v13 (c : Dev nD) : W6 m ρ c (Proc.devRef .tc main_v13) = (dat0 (V5 m ρ) c).arrAt 3 cfg0.N :=
  (hF0 m ρ c 3).symm
theorem W6_off (c : Dev nD) (b : Ref sig .tc) (hb : b ≠ main_v13) :
    W6 m ρ c (Proc.devRef .tc b) = W5 m ρ c (Proc.devRef .tc b) :=
  withArrays_off (dat0 (V5 m ρ) c) (W5 m ρ c) launch0.win.arr_inj (A_eq0 (V5 m ρ) c) 3 (by decide) b hb

abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec1 c (W7 m ρ c) fun w => (dat1 (V7 m ρ) c).arrAt w cfg1.N
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  Eq.symm (Pipeline.withArrays_arr spec1 launch1.win.arr_inj c _ _ w)
theorem hrest1 (c : Dev nD) : ∀ b, b ∉ Finset.univ.image (Pipeline.arrRef spec1) → V8 m ρ c b = V7 m ρ c b :=
  fun b hb => Pipeline.withArrays_of_ne spec1 c _ _ b fun w e => hb (Finset.mem_image.mpr ⟨w, Finset.mem_univ _, e⟩)
theorem W8_main_v24 (c : Dev nD) : W8 m ρ c (Proc.devRef .tc main_v24) = (dat1 (V7 m ρ) c).arrAt 5 cfg1.N :=
  (hF1 m ρ c 5).symm
theorem W8_off (c : Dev nD) (b : Ref sig .tc) (hb : b ≠ main_v24) :
    W8 m ρ c (Proc.devRef .tc b) = W7 m ρ c (Proc.devRef .tc b) :=
  withArrays_off (dat1 (V7 m ρ) c) (W7 m ρ c) launch1.win.arr_inj (A_eq1 (V7 m ρ) c) 5 (by decide) b hb

abbrev W9 : Dev nD → Valuation τ sig (Elt F) := fun c => StableHlo.after hostOps2 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec2 c (W9 m ρ c) fun w => (dat2 (V9 m ρ) c).arrAt w cfg2.N
abbrev V10 : (c : Dev nD) → (b : Ref sig .tc) → Buf (Elt F) ((c : Thread nD τ).loc b) := fun c b => W10 m ρ c b
theorem hF2 (c : Dev nD) (w : Fin cfg2.W) : (dat2 (V9 m ρ) c).arrAt w cfg2.N = V10 m ρ c (Pipeline.arrRef spec2 w) :=
  Eq.symm (Pipeline.withArrays_arr spec2 launch2.win.arr_inj c _ _ w)
theorem hrest2 (c : Dev nD) : ∀ b, b ∉ Finset.univ.image (Pipeline.arrRef spec2) → V10 m ρ c b = V9 m ρ c b :=
  fun b hb => Pipeline.withArrays_of_ne spec2 c _ _ b fun w e => hb (Finset.mem_image.mpr ⟨w, Finset.mem_univ _, e⟩)
theorem W10_main_v36 (c : Dev nD) : W10 m ρ c (Proc.devRef .tc main_v36) = (dat2 (V9 m ρ) c).arrAt 6 cfg2.N :=
  (hF2 m ρ c 6).symm
theorem W10_off (c : Dev nD) (b : Ref sig .tc) (hb : b ≠ main_v36) :
    W10 m ρ c (Proc.devRef .tc b) = W9 m ρ c (Proc.devRef .tc b) :=
  withArrays_off (dat2 (V9 m ρ) c) (W9 m ρ c) launch2.win.arr_inj (A_eq2 (V9 m ρ) c) 6 (by decide) b hb

abbrev mainArgs : List (Ref sig .tc) :=
  [main_arg0, main_arg1, main_arg2, main_arg3, main_arg4, main_arg5, main_arg6, main_arg7, main_arg8, main_arg9]

theorem mainArgs_unwritten : ∀ b ∈ mainArgs, b ≠ main_v36 ∧ b ∉ hostOps2_W ∧ b ≠ main_v24 ∧ b ∉ hostOps1_W ∧ b ≠ main_v13 ∧
    b ∉ hostOps0_4_W ∧ b ∉ hostOps0_3_W ∧ b ∉ hostOps0_2_W ∧ b ∉ hostOps0_1_W ∧ b ∉ hostOps0_W := by decide

/-- An argument ends as launched: no host stretch writes it and it is no region's output array, so the fold at its
    buffer walks back to the launch memory. -/
theorem W10_arg (c : Dev nD) (b : Ref sig .tc) (hb : b ∈ mainArgs) :
    W10 m ρ c (Proc.devRef .tc b) = m ((c : Thread nD τ).loc b) := by
  obtain ⟨h10, h9, h8, h7, h6, h5, h4, h3, h2, h1⟩ := mainArgs_unwritten b hb
  exact (W10_off m ρ c b h10).trans <| (StableHlo.after_of_writes_sub hostOps2 _ hostOps2_writes h9).trans <|
    (W8_off m ρ c b h8).trans <| (StableHlo.after_of_writes_sub hostOps1 _ hostOps1_writes h7).trans <|
    (W6_off m ρ c b h6).trans <| (StableHlo.after_of_writes_sub hostOps0_4 _ hostOps0_4_writes h5).trans <|
    (StableHlo.after_of_writes_sub hostOps0_3 _ hostOps0_3_writes h4).trans <|
    (StableHlo.after_of_writes_sub hostOps0_2 _ hostOps0_2_writes h3).trans <|
    (StableHlo.after_of_writes_sub hostOps0_1 _ hostOps0_1_writes h2).trans <|
    StableHlo.after_of_writes_sub hostOps0 _ hostOps0_writes h1

theorem W10_main_arg0 (c : Dev nD) : W10 m ρ c (Proc.devRef .tc main_arg0) = m ((c : Thread nD τ).loc main_arg0) :=
  W10_arg m ρ c _ (by decide)
theorem W10_main_arg1 (c : Dev nD) : W10 m ρ c (Proc.devRef .tc main_arg1) = m ((c : Thread nD τ).loc main_arg1) :=
  W10_arg m ρ c _ (by decide)
theorem W10_main_arg2 (c : Dev nD) : W10 m ρ c (Proc.devRef .tc main_arg2) = m ((c : Thread nD τ).loc main_arg2) :=
  W10_arg m ρ c _ (by decide)
theorem W10_main_arg3 (c : Dev nD) : W10 m ρ c (Proc.devRef .tc main_arg3) = m ((c : Thread nD τ).loc main_arg3) :=
  W10_arg m ρ c _ (by decide)
theorem W10_main_arg4 (c : Dev nD) : W10 m ρ c (Proc.devRef .tc main_arg4) = m ((c : Thread nD τ).loc main_arg4) :=
  W10_arg m ρ c _ (by decide)
theorem W10_main_arg5 (c : Dev nD) : W10 m ρ c (Proc.devRef .tc main_arg5) = m ((c : Thread nD τ).loc main_arg5) :=
  W10_arg m ρ c _ (by decide)
theorem W10_main_arg6 (c : Dev nD) : W10 m ρ c (Proc.devRef .tc main_arg6) = m ((c : Thread nD τ).loc main_arg6) :=
  W10_arg m ρ c _ (by decide)
theorem W10_main_arg7 (c : Dev nD) : W10 m ρ c (Proc.devRef .tc main_arg7) = m ((c : Thread nD τ).loc main_arg7) :=
  W10_arg m ρ c _ (by decide)
theorem W10_main_arg8 (c : Dev nD) : W10 m ρ c (Proc.devRef .tc main_arg8) = m ((c : Thread nD τ).loc main_arg8) :=
  W10_arg m ρ c _ (by decide)
theorem W10_main_arg9 (c : Dev nD) : W10 m ρ c (Proc.devRef .tc main_arg9) = m ((c : Thread nD τ).loc main_arg9) :=
  W10_arg m ρ c _ (by decide)

end Cert.KernelIdeal.Hand

end
-- ==== Proof.KI.Run.lean ====
import proofs.«428257_j47124381171999_2_alg».proof.Proof.KI.Fold
import proofs.«428257_j47124381171999_2_alg».proof.Proof.Gen.KernelIdeal.Regions
import Idealize.ShloMosaic.Lib.Pipeline.RegionsLoop
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 3) → (c : Dev nD) → Dat τ (Elt F) Unit ℕ (UR sig nD τ) ℕ (Pipeline.pin (pcfgs (F := F)) adm p) c
  | ⟨0, _⟩ => dat0 (V5 m ρ)
  | ⟨1, _⟩ => dat1 (V7 m ρ)
  | ⟨2, _⟩ => dat2 (V9 m ρ)

theorem pdats_plain : ∀ p c, (∀ w, (pdats m ρ p c).share w = fullShare) ∧ (∀ t, (pdats m ρ p c).owed t = 0)
      ∧ ∀ x, x ∈ (pdats m ρ p c).recorded 0
  | ⟨0, _⟩, _ | ⟨1, _⟩, _ | ⟨2, _⟩, _ => ⟨Pipeline.Dat.share_full _ fun _ => rfl, fun _ => rfl, fun _ => trivial⟩

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev stateAt (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) W R

-- The buffers held at W split into the region's arrays and the rest; W' has the final arrays and agrees with W elsewhere.
set_option backward.isDefEq.respectTransparency.types false in
def regionSeg (p : Fin 3) (lf : Pipeline.LaunchFacts (nD := nD) (τ := τ) cfgs p) (W W' : Dev nD → Valuation τ sig (Elt F))
    (hb : ∀ c, BodyObligation (pdats m ρ p c) (defs₀ (F := F)) Variants.none () Set.univ)
    (hA : ∀ c w, (pdats m ρ p c).A w = W c (Pipeline.arrRef (cfgs p).spec w))
    (hF : ∀ c w, (pdats m ρ p c).arrAt w (cfgs p).N = W' c (Pipeline.arrRef (cfgs p).spec w))
    (hrest : ∀ c b, b ∉ Finset.univ.image (Pipeline.arrRef (cfgs p).spec) → W' c b = W c b)
    (h₀ : ∀ c, (Pipeline.ΦA (cfgs p).spec c : sProp 𝕄) ⊢ (pdats m ρ p c).Φ 0)
    (hₙ : ∀ c, (pdats m ρ p c).Φ (Fin.last _) ⊢ (Pipeline.ΦA (cfgs p).spec c : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c => (pdats_plain m ρ p c).2.1
  pre := stateAt W
  post := stateAt W'
  X c := iprop(∃ r, prngReg c r)
  Y c := iprop(∃ r, prngReg c r)
  Z c := Pipeline.unscopedRest (cfgs p).spec c fun b => W c b
  hentry c := by
    obtain ⟨hs, hz, hr⟩ := pdats_plain m ρ p c
    have hsplit := Pipeline.arrays_of_unscopedBufs (p := p) (pcfgs (F := F)) adm (pdats m ρ) lf.win lf.arr_whole c hs (fun b => W c b) (hA c)
    rw [Pipeline.unscopedBufs_held] at hsplit
    rw [Pipeline.ownSems0_none]
    unfold Pipeline.prefHeld Pipeline.Dat.owesAt Pipeline.owesWithin
    rw [hz, show (Finset.univ : Finset (Fin 0)) = ∅ from rfl, BI.bigSep_empty]
    iintro ⟨⟨Hub, Hp, %S, HO⟩, -, -⟩
    ihave H := hsplit $$ Hub
    icases H with ⟨Ha, Hrest⟩
    imodintro
    isplitl [Ha]; · iexact Ha
    isplitr; · iempintro
    isplitl [HO]
    · iexists S; isplitr; · ipureintro; exact fun x _ => Or.inl (hr x)
      iexact HO
    isplitl [Hp] <;> iassumption
  hin c := by
    refine .trans ?_ (h₀ c)
    unfold Pipeline.ΦA
    iintro ⟨Hp, -, Hr⟩
    isplitl [Hr] <;> iassumption
  hout c := by
    rw [Pipeline.ownSems0_none]
    refine (hₙ c).trans ?_
    unfold Pipeline.ΦA
    iintro ⟨Hr, Hp⟩
    isplitl [Hp]; · iexact Hp
    isplitr; · iempintro
    iexact Hr
  hexit c := by
    obtain ⟨hs, hz, -⟩ := pdats_plain m ρ p c
    have hjoin := Pipeline.unscopedBufs_of_arrays (p := p) (pcfgs (F := F)) adm lf.win lf.arr_whole c (pdats m ρ) hs
      (fun b => W c b) (fun b => W' c b) ((pdats m ρ p c).arrAt · (cfgs p).N) (hF c) (hrest c)
    rw [Pipeline.unscopedBufs_held] at hjoin
    unfold Pipeline.Dat.owesAt Pipeline.owesWithin
    rw [hz]
    iintro ⟨Ha, ⟨%S, -, HO⟩, HY, Hrest⟩
    imodintro
    isplitl [Ha Hrest]
    · iapply hjoin; isplitl [Ha] <;> iassumption
    isplitl [HY]; · iexact HY
    iexists S; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (regionSeg m ρ 0 launch0 (W5 m ρ) (W6 m ρ) (body_obligation0 (V5 m ρ)) (A_eq0 (V5 m ρ)) (hF0 m ρ) (hrest0 m ρ) (fun _ => .rfl) fun _ => .rfl),
    .host (hseg hostOps1 hostOps1_sub hostOps1_fresh (W6 m ρ)),
    .region (regionSeg m ρ 1 launch1 (W7 m ρ) (W8 m ρ) (body_obligation1 (V7 m ρ)) (A_eq1 (V7 m ρ)) (hF1 m ρ) (hrest1 m ρ) (fun _ => .rfl) fun _ => .rfl),
    .host (hseg hostOps2 hostOps2_sub hostOps2_fresh (W8 m ρ)),
    .region (regionSeg m ρ 2 launch2 (W9 m ρ) (W10 m ρ) (body_obligation2 (V9 m ρ)) (A_eq2 (V9 m ρ)) (hF2 m ρ) (hrest2 m ρ) (hin2 (V9 m ρ)) (hout2 (V9 m ρ))) ]

theorem main_run (c : Dev nD) : main (F := F) c = Pipeline.Seg.run (segs m ρ) := (main_chain c).trans (by chain_rfl)

-- The ten segments chain from the launch contents to the last; reading the final state gives every buffer's value.
set_option backward.isDefEq.respectTransparency.types false in
theorem run_all : θ_run defs (onTc (τ := τ) (main (F := F))) ⟨m, fun _ => 0, ρ⟩ (fun r => ∀ (c : Dev nD) (b : Ref sig .tc),
      ¬ (Proc.devRef .tc b : DevRef τ sig).isScoped → r.2.mem ((c : Thread nD τ).loc b) = W10 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (Entails.of_eq (BI.bigSep_emp_const _).symm); iempintro)
    (T₀ := stateAt (W0 m ρ)) (Tₙ := fun c => iprop(StableHlo.held (c : Thread nD τ) (Pipeline.ucRefs τ sig) (W10 m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      erw [Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c b hb => h c _ (Finset.mem_filter.mpr ⟨StableHlo.devRef_mem_tcRefs b, hb⟩))

-- The fold walks each argument's last contents back to its launch contents.
theorem run_result : θ_run defs (onTc (τ := τ) (main (F := F))) ⟨m, fun _ => 0, ρ⟩ (fun r => ∀ c : Dev nD,
      r.2.mem ((c.tc : Thread nD τ).loc main_v36) = W10 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (by decide),
     (h c _ (by decide)).trans (W10_main_arg0 m ρ c),
     (h c _ (by decide)).trans (W10_main_arg1 m ρ c),
     (h c _ (by decide)).trans (W10_main_arg2 m ρ c),
     (h c _ (by decide)).trans (W10_main_arg3 m ρ c),
     (h c _ (by decide)).trans (W10_main_arg4 m ρ c),
     (h c _ (by decide)).trans (W10_main_arg5 m ρ c),
     (h c _ (by decide)).trans (W10_main_arg6 m ρ c),
     (h c _ (by decide)).trans (W10_main_arg7 m ρ c),
     (h c _ (by decide)).trans (W10_main_arg8 m ρ c),
     (h c _ (by decide)).trans (W10_main_arg9 m ρ c)⟩) (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_result m ρ)

end Cert.KernelIdeal.Hand

end
-- ==== Proof.LibTRef.lean ====
import Idealize.ShloMosaic.Lib.StableHlo

noncomputable section

namespace Cert.LibTRef

open Idealize.ShloMosaic Idealize.ShloMosaic.StableHlo

variable {sig : RefSig} {T : BufTy} {Val : EltTy → Type}

theorem ofBuf_toBuf (x : TRef sig T) (v : T.Contents Val) : x.ofBuf (x.toBuf v) = v := by
  obtain ⟨r, rfl, h2, h3⟩ := x
  rfl

theorem toBuf_ofBuf (x : TRef sig T) (u : x.ref.ty.Contents Val) : x.toBuf (x.ofBuf u) = u := by
  obtain ⟨r, rfl, h2, h3⟩ := x
  rfl

end Cert.LibTRef

end
-- ==== Proof.KI.HostRead.lean ====
import proofs.«428257_j47124381171999_2_alg».proof.Proof.Gen.KernelIdeal.Launch
import proofs.«428257_j47124381171999_2_alg».proof.Proof.Gen.KernelIdeal.Regions
import proofs.«428257_j47124381171999_2_alg».proof.Proof.LibTRef
import Idealize.ShloMosaic.Lib.StableHlo.Run

noncomputable section

namespace Cert.KernelIdeal.HandH

open Cert.KernelIdeal Cert.KernelIdeal.Gen
open Idealize.ShloMosaic Idealize.ShloMosaic.TcCoe Idealize.ShloMosaic.StableHlo

variable {F : FTy → Type} [FloatOps F]

def normOf (idx : IVec S800000 32) : FVec F S50000x1 .f32 :=
  broadcastInDim S50000x1 ![0] bcast_S50000_S50000x1_0
    (Host.rsqrt (maximumf (broadcastInDim S50000 ![] bcast_S_S50000 (constant S_ .f32 0x3F800000#32))
      (Host.scatterAdd scatter_S50000_S800000x1_S800000_n_0_0_1
        (broadcastInDim S50000 ![] bcast_S_S50000 (constant S_ .f32 0x00000000#32))
        (broadcastInDim S800000x1 ![0] bcast_S800000_S800000x1_0 idx)
        (broadcastInDim S800000 ![] bcast_S_S800000 (constant S_ .f32 0x3F800000#32)))))

def srcCol (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

def aggOf (src dst : IVec S800000 32) (h : FVec F S50000x128 .f32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 h (srcCol src))

def gidCol (gid : IVec S50000 32) : IVec S50000x1 32 := shapeCast S50000x1 gid shapeCasts_S50000_S50000x1

variable (X : Valuation τ sig (Elt F))

abbrev X5 : Valuation τ sig (Elt F) :=
  StableHlo.after hostOps0_4 (StableHlo.after hostOps0_3 (StableHlo.after hostOps0_2 (StableHlo.after hostOps0_1 (StableHlo.after hostOps0 X))))

theorem X5_v10 : (X5 X (Proc.devRef .tc main_v10) : FVec F S50000x1 .f32) = normOf (F := F) (X (Proc.devRef .tc main_arg0)) := by
  simp only [X5, hostOps0, hostOps0_1, hostOps0_2, hostOps0_3, hostOps0_4]
  after_results
  simp only [Cert.LibTRef.ofBuf_toBuf, Cert.LibTRef.toBuf_ofBuf]
  rfl

theorem X5_v12 : (X5 X (Proc.devRef .tc main_v12) : FVec F S50000x1 .f32) = normOf (F := F) (X (Proc.devRef .tc main_arg1)) := by
  simp only [X5, hostOps0, hostOps0_1, hostOps0_2, hostOps0_3, hostOps0_4]
  after_results
  simp only [Cert.LibTRef.ofBuf_toBuf, Cert.LibTRef.toBuf_ofBuf]
  rfl

theorem X5_of (r : Ref sig .tc) (h0 : r ∉ hostOps0_W) (h1 : r ∉ hostOps0_1_W) (h2 : r ∉ hostOps0_2_W) (h3 : r ∉ hostOps0_3_W)
    (h4 : r ∉ hostOps0_4_W) : X5 X (Proc.devRef .tc r) = X (Proc.devRef .tc r) :=
  (StableHlo.after_of_writes_sub hostOps0_4 _ hostOps0_4_writes h4).trans <|
  (StableHlo.after_of_writes_sub hostOps0_3 _ hostOps0_3_writes h3).trans <|
  (StableHlo.after_of_writes_sub hostOps0_2 _ hostOps0_2_writes h2).trans <|
  (StableHlo.after_of_writes_sub hostOps0_1 _ hostOps0_1_writes h1).trans <|
  (StableHlo.after_of_writes_sub hostOps0 _ hostOps0_writes h0)

theorem after1_v23 : (StableHlo.after hostOps1 X (Proc.devRef .tc main_v23) : FVec F S50000x128 .f32)
    = aggOf (F := F) (X (Proc.devRef .tc main_arg0)) (X (Proc.devRef .tc main_arg1)) (X (Proc.devRef .tc main_v13)) := by
  simp only [hostOps1]
  after_results
  rfl

theorem after1_of (r : Ref sig .tc) (h : r ∉ hostOps1_W) : StableHlo.after hostOps1 X (Proc.devRef .tc r) = X (Proc.devRef .tc r) :=
  StableHlo.after_of_writes_sub hostOps1 _ hostOps1_writes h

theorem after2_v34 : (StableHlo.after hostOps2 X (Proc.devRef .tc main_v34) : FVec F S50000x128 .f32)
    = aggOf (F := F) (X (Proc.devRef .tc main_arg0)) (X (Proc.devRef .tc main_arg1)) (X (Proc.devRef .tc main_v24)) := by
  simp only [hostOps2]
  after_results
  rfl

theorem after2_v35 : (StableHlo.after hostOps2 X (Proc.devRef .tc main_v35) : IVec S50000x1 32)
    = gidCol (X (Proc.devRef .tc main_arg2)) := by
  simp only [hostOps2]
  after_results
  rfl

theorem after2_of (r : Ref sig .tc) (h : r ∉ hostOps2_W) : StableHlo.after hostOps2 X (Proc.devRef .tc r) = X (Proc.devRef .tc r) :=
  StableHlo.after_of_writes_sub hostOps2 _ hostOps2_writes h

end Cert.KernelIdeal.HandH

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev I2 (a b : Nat) : Type := (⟨2, ![a, b]⟩ : Shape).Idx
abbrev I1 (a : Nat) : Type := (⟨1, ![a]⟩ : Shape).Idx

def hwAt (x : I2 50000 128 → EReal) (W : I2 128 128 → EReal) (ns : I2 50000 1 → EReal) (r : Fin 50000) (c : Fin 128) : EReal :=
  (∑ k : Fin 128, x (ix2 r k) * W (ix2 k c)) * ns (ix2 r 0)

def hw (x : I2 50000 128 → EReal) (W : I2 128 128 → EReal) (ns : I2 50000 1 → EReal) : I2 50000 128 → EReal :=
  fun i => hwAt x W ns (i 0) (i 1)

def h1At (agg : I2 50000 128 → EReal) (nd : I2 50000 1 → EReal) (b : I1 128 → EReal) (r : Fin 50000) (k : Fin 128) : EReal :=
  max (agg (ix2 r k) * nd (ix2 r 0) + b (ix1 k)) 0

def hw2At (agg : I2 50000 128 → EReal) (nd : I2 50000 1 → EReal) (b : I1 128 → EReal) (W : I2 128 128 → EReal)
    (ns : I2 50000 1 → EReal) (r : Fin 50000) (c : Fin 128) : EReal :=
  (∑ k : Fin 128, h1At agg nd b r k * W (ix2 k c)) * ns (ix2 r 0)

def hw2 (agg : I2 50000 128 → EReal) (nd : I2 50000 1 → EReal) (b : I1 128 → EReal) (W : I2 128 128 → EReal)
    (ns : I2 50000 1 → EReal) : I2 50000 128 → EReal :=
  fun i => hw2At agg nd b W ns (i 0) (i 1)

theorem hw2_apply (agg : I2 50000 128 → EReal) (nd : I2 50000 1 → EReal) (b : I1 128 → EReal) (W : I2 128 128 → EReal)
    (ns : I2 50000 1 → EReal) (r : Fin 50000) (c : Fin 128) : hw2 agg nd b W ns (ix2 r c) = hw2At agg nd b W ns r c := rfl

def h2At (agg : I2 50000 128 → EReal) (nd : I2 50000 1 → EReal) (b : I1 128 → EReal) (r : Fin 50000) (f : Fin 128) : EReal :=
  agg (ix2 r f) * nd (ix2 r 0) + b (ix1 f)

def inGraph (gid : I2 50000 1 → BitVec 32) (r : Fin 50000) (g : Fin 64) : Prop := (gid (ix2 r 0)).toInt = (g.val : ℤ)

instance (gid : I2 50000 1 → BitVec 32) (r : Fin 50000) (g : Fin 64) : Decidable (inGraph gid r g) := by
  unfold inGraph; infer_instance

def sumAt (agg : I2 50000 128 → EReal) (nd : I2 50000 1 → EReal) (b : I1 128 → EReal) (gid : I2 50000 1 → BitVec 32)
    (g : Fin 64) (f : Fin 128) : EReal :=
  ∑ r : Fin 50000, if inGraph gid r g then h2At agg nd b r f else 0

def cntAt (gid : I2 50000 1 → BitVec 32) (g : Fin 64) : EReal :=
  ∑ r : Fin 50000, if inGraph gid r g then (1 : EReal) else 0

def poolAt (agg : I2 50000 128 → EReal) (nd : I2 50000 1 → EReal) (b : I1 128 → EReal) (gid : I2 50000 1 → BitVec 32)
    (Wc : I2 128 10 → EReal) (bc : I1 10 → EReal) (g : Fin 64) (j : Fin 10) : EReal :=
  (∑ f : Fin 128, Ideal.div (sumAt agg nd b gid g f) (max 1 (cntAt gid g)) * Wc (ix2 f j)) + bc (ix1 j)

def pool (agg : I2 50000 128 → EReal) (nd : I2 50000 1 → EReal) (b : I1 128 → EReal) (gid : I2 50000 1 → BitVec 32)
    (Wc : I2 128 10 → EReal) (bc : I1 10 → EReal) : I2 64 10 → EReal :=
  fun i => poolAt agg nd b gid Wc bc (i 0) (i 1)

end Cert.Spec

end
-- ==== Proof.LibDot.lean ====
import Idealize.ShloMosaic.PureOps.Ideal.Laws
import Idealize.ShloMosaic.Lib.ValueIdx

noncomputable section

namespace Cert.LibDot

open Idealize.ShloMosaic Idealize.ShloMosaic.ValueIdx

variable {M K N : Nat} (D : DotDims ⟨2, ![M, K]⟩ ⟨2, ![K, N]⟩ ⟨2, ![M, N]⟩)

theorem lhs_row (hlb : D.lhsBatch = []) (hln : D.lhsNonContracting = [0]) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

theorem lhs_col (hlc : D.lhsContracting = [1]) (j : (⟨2, ![M, N]⟩ : Shape).Idx) (k : D.contr.Idx) :
    (D.lhsIdx j k 1).val = (k ⟨0, by rw [D.rank_contr, hlc]; exact Nat.one_pos⟩).val :=
  D.lhsIdx_val_of_single hlc j k

theorem rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

theorem rhs_col (hlb : D.lhsBatch = []) (hrb : D.rhsBatch = []) (hln : D.lhsNonContracting = [0]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  have h := D.size_contr 0 (by rw [hlc]; exact Nat.one_pos)
  rw [h]
  simp [hlc]

theorem sum_plain (hlc : D.lhsContracting = [1]) (hrc : D.rhsContracting = [0]) (hln : D.lhsNonContracting = [0])
    (hrn : D.rhsNonContracting = [1]) (hlb : D.lhsBatch = []) (hrb : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have e1 : D.lhsIdx (ix2 a b) ((contrEquiv1 D K (contr_rank D hlc) (contr_size D hlc)).symm k) = ix2 a k := by
    funext x; refine Fin.ext ?_
    match x with
    | ⟨0, _⟩ => exact lhs_row D hlb hln _ _
    | ⟨1, _⟩ => exact (lhs_col D hlc _ _).trans hk
  have e2 : D.rhsIdx (ix2 a b) ((contrEquiv1 D K (contr_rank D hlc) (contr_size D hlc)).symm k) = ix2 k b := by
    funext x; refine Fin.ext ?_
    match x with
    | ⟨0, _⟩ => exact (rhs_row D hrc _ _).trans hk
    | ⟨1, _⟩ => exact rhs_col D hlb hrb hln hrn _ _
  rw [e1, e2]

theorem matmul_plain_apply {φ₁ φ₂ : FTy} (hlc : D.lhsContracting = [1]) (hrc : D.rhsContracting = [0]) (hln : D.lhsNonContracting = [0])
    (hrn : D.rhsNonContracting = [1]) (hlb : D.lhsBatch = []) (hrb : D.rhsBatch = []) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  show FloatOps.matmul D prec l r (constant ⟨2, ![M, N]⟩ .f32 0x00000000#32) (ix2 a b) = _
  rw [Ideal.matmul_constant_zero_apply]
  exact sum_plain D hlc hrc hln hrn hlb hrb l r a b

end Cert.LibDot

end
-- ==== Proof.LibColumn.lean ====
import Idealize.ShloMosaic.Lib.Pipeline.Value
import Idealize.ShloMosaic.Lib.ValueIdx
import Idealize.ShloMosaic.Lib.ValueLayout

noncomputable section

namespace Cert.LibColumn

open Idealize.ShloMosaic Idealize.ShloMosaic.ValueIdx

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumn

end
-- ==== Proof.KI.Val0.lean ====
import proofs.«428257_j47124381171999_2_alg».proof.Proof.KI.R0
import proofs.«428257_j47124381171999_2_alg».proof.Proof.Spec
import proofs.«428257_j47124381171999_2_alg».proof.Proof.LibDot
import proofs.«428257_j47124381171999_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandV

open Cert.KernelIdeal Cert.KernelIdeal.Gen
open Idealize.ShloMosaic Idealize.ShloMosaic.TcCoe Idealize.ShloMosaic.ValueIdx Idealize.SL.Sem
open Idealize.ShloMosaic.Pipeline (Dat)

theorem hz0 : (![0, 0] : Fin 2 → Nat) = fun _ => 0 := funext fun a => by fin_cases a <;> rfl

theorem pay0_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  rw [mulf_apply, Cert.LibDot.matmul_plain_apply dot_S5000x128_S128x128_S5000x128_1_0_0_1_n_n rfl rfl rfl rfl rfl rfl,
    Cert.LibColumn.broadcastTo_a1_ab_apply, shapeCast_self]
  rfl

theorem pay0_eq_hw (X : S50000x128.Idx → EReal) (W : S128x128.Idx → EReal) (ns : S50000x1.Idx → EReal)
    (x0 : Vec Ideal S5000x128 .f32) (x1 : Vec Ideal S128x128 .f32) (x2 : Vec Ideal S5000x1 .f32)
    (j : S5000x128.Idx) (i : S50000x128.Idx)
    (h0 : ∀ k : Fin 128, x0 (ix2 (j 0) k) = X (ix2 (i 0) k)) (h1 : x1 = W)
    (h2 : x2 (ix2 (j 0) (0 : Fin 1)) = ns (ix2 (i 0) (0 : Fin 1))) (hq : j 1 = i 1) :
    k0_pay1 x0 x1 x2 j = Cert.Spec.hw X W ns i := by
  obtain ⟨p, q, rfl⟩ : ∃ (p : Fin 5000) (q : Fin 128), j = ix2 p q := ⟨j 0, j 1, eq_ix2 j⟩
  have h0' : ∀ k : Fin 128, x0 (ix2 p k) = X (ix2 (i 0) k) := h0
  have h2' : x2 (ix2 p (0 : Fin 1)) = ns (ix2 (i 0) (0 : Fin 1)) := h2
  have hq' : q = i 1 := hq
  rw [pay0_apply, h1, h2']
  show _ = Cert.Spec.hwAt X W ns (i 0) (i 1)
  unfold Cert.Spec.hwAt
  rw [← hq']
  congr 1
  exact Finset.sum_congr rfl fun k _ => by rw [h0' k]

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

theorem flushed0_eq (c : Dev nD) (t : Fin cfg0.N) :
    (Hand.dat0 (F := Ideal) V c).flushed 3 t
      = ((cfg0.win 3).blk t).view.read (Elt Ideal) (Cert.Spec.hw (V c main_arg3) (V c main_arg4) (V c main_v10)) := by
  show (cfg0.win 3).cut (grid0.coords t) ((Hand.dat0 (F := Ideal) V c).after 3 t) = _
  rw [Hand.after0_3]
  unfold Hand.out0_3
  rw [View.canon_unit_zero hz0]
  simp only [View.ld_unit_zero (S := S5000x128) hz0, View.ld_unit_zero (S := S128x128) hz0, View.ld_unit_zero (S := S5000x1) hz0]
  obtain ⟨e00, e01, e10, e11, e20, e21, e30, e31⟩ := idx_facts0 t
  funext j
  refine pay0_eq_hw (V c main_arg3) (V c main_arg4) (V c main_v10) _ _ _ j (((cfg0.win 3).blk t).view.emb j) (fun k => ?_) ?_ ?_ ?_
  · show V c main_arg3 (((cfg0.win 0).blk t).view.emb (ix2 (j 0) k)) = V c main_arg3 _
    congr 1
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · funext y
    show V c main_arg4 (((cfg0.win 1).blk t).view.emb y) = V c main_arg4 y
    congr 1
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  · show V c main_v10 (((cfg0.win 2).blk t).view.emb (ix2 (j 0) (0 : Fin 1))) = V c main_v10 _
    congr 1
    funext a; apply Fin.ext
    match a with
    | ⟨0, _⟩ => show win0_2.index t (0 : Fin 2) * 5000 + 1 * (j 0).val = win0_3.index t (0 : Fin 2) * 5000 + 1 * (j 0).val; omega
    | ⟨1, _⟩ => show win0_2.index t (1 : Fin 2) * 1 + 1 * 0 = 0; omega
  · apply Fin.ext
    show (j 1).val = win0_3.index t (1 : Fin 2) * 128 + 1 * (j 1).val
    omega

theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13).slice (win0_3.rect t)).set ↔ _
  rw [View.set_slice_whole, Rect.mem_set_unit]
  exact Iff.rfl

theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e30, e31⟩ := idx_facts0 t
  have e30' : win0_3.index t (0 : Fin 2) = (i 0).val / 5000 := e30
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

theorem arr0 (c : Dev nD) :
    (Hand.dat0 (F := Ideal) V c).arrAt 3 cfg0.N = Cert.Spec.hw (V c main_arg3) (V c main_arg4) (V c main_v10) :=
  (Hand.dat0 (F := Ideal) V c).arrAt_eq_of_cover 3 (Cert.Spec.hw (V c main_arg3) (V c main_arg4) (V c main_v10))
    (fun t _ => flushed0_eq V c t) cover0

end

end Cert.KernelIdeal.HandV

end
-- ==== Proof.KI.Val1.lean ====
import proofs.«428257_j47124381171999_2_alg».proof.Proof.KI.R1
import proofs.«428257_j47124381171999_2_alg».proof.Proof.Spec
import proofs.«428257_j47124381171999_2_alg».proof.Proof.LibDot
import proofs.«428257_j47124381171999_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandV

open Idealize.ShloMosaic Idealize.ShloMosaic.TcCoe Idealize.ShloMosaic.ValueIdx Idealize.SL.Sem
open Idealize.ShloMosaic.Pipeline (Dat)
open Cert.KernelIdeal Cert.KernelIdeal.Gen

theorem pay1_apply (x0 : Vec Ideal S5000x128 .f32) (x1 : Vec Ideal S5000x1 .f32) (x2 : Vec Ideal S128 .f32) (x3 : Vec Ideal S128x128 .f32) (x4 : Vec Ideal S5000x1 .f32) (p : Fin 5000) (q : Fin 128) :
    k1_pay1 x0 x1 x2 x3 x4 (ix2 p q)
      = (∑ k : Fin 128, max (x0 (ix2 p k) * x1 (ix2 p 0) + x2 (ix1 k)) 0 * x3 (ix2 k q)) * x4 (ix2 p 0) := by
  unfold k1_pay1
  simp only [shapeCast_self]
  rw [mulf_apply, LibDot.matmul_plain_apply dot_S5000x128_S128x128_S5000x128_1_0_0_1_n_n rfl rfl rfl rfl rfl rfl,
    LibColumn.broadcastTo_a1_ab_apply]
  congr 1
  refine Finset.sum_congr rfl fun k _ => ?_
  rw [truncf_apply, truncf_apply, maximumf_apply, addf_apply, mulf_apply, broadcast_apply,
    LibColumn.broadcastTo_a1_ab_apply, broadcastTo_1b_ab_apply, shapeCast_a_1a_apply]
  rw [show (FloatOps.ofBits FTy.f32 0#32 : Ideal .f32) = 0 from Ideal.ofBits_zero_f32]

theorem block_value (A : Spec.I2 50000 128 → EReal) (nd : Spec.I2 50000 1 → EReal) (b : Spec.I1 128 → EReal)
    (W : Spec.I2 128 128 → EReal) (ns : Spec.I2 50000 1 → EReal)
    (x0 : Vec Ideal S5000x128 .f32) (x1 : Vec Ideal S5000x1 .f32) (x2 : Vec Ideal S128 .f32) (x3 : Vec Ideal S128x128 .f32) (x4 : Vec Ideal S5000x1 .f32)
    (n : ℕ) (hn : n < 10)
    (h0 : ∀ (p : Fin 5000) (k : Fin 128), x0 (ix2 p k) = A (ix2 (⟨n * 5000 + p.val, by have := p.isLt; omega⟩ : Fin 50000) k))
    (h1 : ∀ p : Fin 5000, x1 (ix2 p (0 : Fin 1)) = nd (ix2 (⟨n * 5000 + p.val, by have := p.isLt; omega⟩ : Fin 50000) (0 : Fin 1)))
    (h2 : ∀ k : Fin 128, x2 (ix1 k) = b (ix1 k))
    (h3 : ∀ k q : Fin 128, x3 (ix2 k q) = W (ix2 k q))
    (h4 : ∀ p : Fin 5000, x4 (ix2 p (0 : Fin 1)) = ns (ix2 (⟨n * 5000 + p.val, by have := p.isLt; omega⟩ : Fin 50000) (0 : Fin 1)))
    (j : S5000x128.Idx) (i : S50000x128.Idx) (hi0 : (i 0).val = n * 5000 + (j 0).val) (hi1 : (i 1).val = (j 1).val) :
    k1_pay1 x0 x1 x2 x3 x4 j = Spec.hw2 A nd b W ns i := by
  obtain ⟨p, q, rfl⟩ : ∃ (p : Fin 5000) (q : Fin 128), j = ix2 p q := ⟨j 0, j 1, eq_ix2 j⟩
  have hb : n * 5000 + p.val < 50000 := by have := p.isLt; omega
  obtain ⟨r, q', rfl⟩ : ∃ (r : Fin 50000) (q' : Fin 128), i = ix2 r q' := ⟨i 0, i 1, eq_ix2 i⟩
  obtain rfl : r = ⟨n * 5000 + p.val, hb⟩ := Fin.ext hi0
  obtain rfl : q' = q := Fin.ext hi1
  rw [pay1_apply, Spec.hw2_apply]
  unfold Spec.hw2At Spec.h1At
  rw [h4]
  congr 1
  refine Finset.sum_congr rfl fun k _ => ?_
  rw [h0, h1, h2, h3]

theorem zeros2 : (![0, 0] : Fin 2 → Nat) = fun _ => 0 := funext fun a => by fin_cases a <;> rfl
theorem zeros1 : (![0] : Fin 1 → Nat) = fun _ => 0 := funext fun a => by fin_cases a <;> rfl

theorem block_index1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

theorem flushed1_eq (c : Dev nD) (t : Fin cfg1.N) :
    (Hand.dat1 (F := Ideal) V c).flushed 5 t
      = ((cfg1.win 5).blk t).view.read (Elt Ideal)
          (Spec.hw2 (V c main_v23) (V c main_v12) (V c main_arg5) (V c main_arg6) (V c main_v10)) := by
  show (cfg1.win 5).cut (grid1.coords t) ((Hand.dat1 V c).after 5 t) = _
  rw [Hand.after1_5]
  unfold Hand.out1_5
  rw [View.canon_unit_zero zeros2]
  simp only [View.ld_unit_zero (S := S5000x128) zeros2, View.ld_unit_zero (S := S5000x1) zeros2,
    View.ld_unit_zero (S := S128) zeros1, View.ld_unit_zero (S := S128x128) zeros2]
  obtain ⟨e00, e01, e10, e11, e20, e30, e31, e40, e41, e50, e51⟩ := block_index1 t
  have ht : t.val < 10 := t.isLt
  funext j
  refine block_value (V c main_v23) (V c main_v12) (V c main_arg5) (V c main_arg6) (V c main_v10) _ _ _ _ _ t.val ht
    ?_ ?_ ?_ ?_ ?_ j (((cfg1.win 5).blk t).view.emb j) ?_ ?_
  · intro p k
    show V c main_v23 (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  · intro p
    show V c main_v12 (((cfg1.win 1).blk t).view.emb (ix2 p (0 : Fin 1))) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · intro k
    show V c main_arg5 (((cfg1.win 2).blk t).view.emb (ix1 k)) = _
    refine congrArg _ (funext fun a => Fin.ext ?_)
    match a with
    | ⟨0, _⟩ => show win1_2.index t (0 : Fin 1) * 128 + 1 * k.val = k.val; omega
  · intro k q
    show V c main_arg6 (((cfg1.win 3).blk t).view.emb (ix2 k q)) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · intro p
    show V c main_v10 (((cfg1.win 4).blk t).view.emb (ix2 p (0 : Fin 1))) = _
    refine congrArg _ (funext fun a => Fin.ext ?_)
    match a with
    | ⟨0, _⟩ => show win1_4.index t (0 : Fin 2) * 5000 + 1 * p.val = t.val * 5000 + p.val; omega
    | ⟨1, _⟩ => show win1_4.index t (1 : Fin 2) * 1 + 1 * 0 = 0; omega
  · show win1_5.index t (0 : Fin 2) * 5000 + 1 * (j 0).val = t.val * 5000 + (j 0).val; omega
  · show win1_5.index t (1 : Fin 2) * 128 + 1 * (j 1).val = (j 1).val; omega

theorem mem_block1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v24).slice (win1_5.rect t)).set ↔ _
  rw [View.set_slice_whole, Rect.mem_set_unit]
  exact Iff.rfl

theorem covered1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hlt : (i 0).val / 5000 < 10 := by omega
  refine ⟨⟨(i 0).val / 5000, hlt⟩, flush1_5 _, ?_⟩
  rw [mem_block1]
  obtain ⟨-, -, -, -, -, -, -, -, -, e50, e51⟩ := block_index1 ⟨(i 0).val / 5000, hlt⟩
  have e50' : win1_5.index ⟨(i 0).val / 5000, hlt⟩ (0 : Fin 2) = (i 0).val / 5000 := e50
  intro a
  match a with
  | ⟨0, _⟩ =>
    show win1_5.index ⟨(i 0).val / 5000, hlt⟩ (0 : Fin 2) * 5000 ≤ (i 0).val ∧ (i 0).val < win1_5.index ⟨(i 0).val / 5000, hlt⟩ (0 : Fin 2) * 5000 + 5000
    omega
  | ⟨1, _⟩ =>
    show win1_5.index ⟨(i 0).val / 5000, hlt⟩ (1 : Fin 2) * 128 ≤ (i 1).val ∧ (i 1).val < win1_5.index ⟨(i 0).val / 5000, hlt⟩ (1 : Fin 2) * 128 + 128
    omega

theorem arr1 (c : Dev nD) :
    (Hand.dat1 (F := Ideal) V c).arrAt 5 cfg1.N
      = Cert.Spec.hw2 (V c main_v23) (V c main_v12) (V c main_arg5) (V c main_arg6) (V c main_v10) :=
  (Hand.dat1 (F := Ideal) V c).arrAt_eq_of_cover 5 _ (fun t _ => flushed1_eq V c t) covered1

end

end Cert.KernelIdeal.HandV

end
-- ==== Proof.KI.PoolPay.lean ====
import proofs.«428257_j47124381171999_2_alg».proof.Proof.Gen.KernelIdeal.Skeleton
import proofs.«428257_j47124381171999_2_alg».proof.Proof.LibDot
import proofs.«428257_j47124381171999_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandV.Pool

open Idealize.ShloMosaic Idealize.ShloMosaic.ValueIdx Cert.KernelIdeal Cert.KernelIdeal.Gen

section RowsDot

variable {M K N : Nat} (D : DotDims ⟨2, ![K, M]⟩ ⟨2, ![K, N]⟩ ⟨2, ![M, N]⟩)

theorem rows_lhs_row (hlc : D.lhsContracting = [0]) (j : (⟨2, ![M, N]⟩ : Shape).Idx) (k : D.contr.Idx) :
    (D.lhsIdx j k 0).val = (k ⟨0, by rw [D.rank_contr, hlc]; exact Nat.one_pos⟩).val :=
  D.lhsIdx_val_of_single hlc j k

theorem rows_lhs_col (hlb : D.lhsBatch = []) (hln : D.lhsNonContracting = [1]) (j : (⟨2, ![M, N]⟩ : Shape).Idx) (k : D.contr.Idx) :
    (D.lhsIdx j k 1).val = (j 0).val := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

theorem rows_rhs_row (hrc : D.rhsContracting = [0]) (j : (⟨2, ![M, N]⟩ : Shape).Idx) (k : D.contr.Idx) :
    (D.rhsIdx j k 0).val = (k ⟨0, by rw [D.rank_contr, ← D.length_contracting, hrc]; exact Nat.one_pos⟩).val :=
  D.rhsIdx_val_of_single hrc j k

theorem rows_rhs_col (hlb : D.lhsBatch = []) (hrb : D.rhsBatch = []) (hln : D.lhsNonContracting = [1]) (hrn : D.rhsNonContracting = [1])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

theorem rows_contr_rank (hlc : D.lhsContracting = [0]) : D.contr.rank = 1 := by rw [D.rank_contr, hlc]; rfl

theorem rows_contr_size (hlc : D.lhsContracting = [0]) :
    D.contr.size ⟨0, by rw [rows_contr_rank D hlc]; exact Nat.one_pos⟩ = K := by
  have h := D.size_contr 0 (by rw [hlc]; exact Nat.one_pos)
  rw [h]
  simp [hlc]

theorem rows_sum (hlc : D.lhsContracting = [0]) (hrc : D.rhsContracting = [0]) (hln : D.lhsNonContracting = [1])
    (hrn : D.rhsNonContracting = [1]) (hlb : D.lhsBatch = []) (hrb : D.rhsBatch = [])
    (l : (⟨2, ![K, M]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 k a) * r (ix2 k b) := by
  rw [← Equiv.sum_comp (contrEquiv1 D K (rows_contr_rank D hlc) (rows_contr_size D hlc)).symm]
  refine Finset.sum_congr rfl fun k _ => ?_
  have hk := contrEquiv1_symm_val D K (rows_contr_rank D hlc) (rows_contr_size D hlc) k
  have e1 : D.lhsIdx (ix2 a b) ((contrEquiv1 D K (rows_contr_rank D hlc) (rows_contr_size D hlc)).symm k) = ix2 k a := by
    funext x; refine Fin.ext ?_
    match x with
    | ⟨0, _⟩ => exact (rows_lhs_row D hlc _ _).trans hk
    | ⟨1, _⟩ => exact rows_lhs_col D hlb hln _ _
  have e2 : D.rhsIdx (ix2 a b) ((contrEquiv1 D K (rows_contr_rank D hlc) (rows_contr_size D hlc)).symm k) = ix2 k b := by
    funext x; refine Fin.ext ?_
    match x with
    | ⟨0, _⟩ => exact (rows_rhs_row D hrc _ _).trans hk
    | ⟨1, _⟩ => exact rows_rhs_col D hlb hrb hln hrn _ _
  rw [e1, e2]

theorem matmul_rows_apply {φ₁ φ₂ : FTy} (hlc : D.lhsContracting = [0]) (hrc : D.rhsContracting = [0]) (hln : D.lhsNonContracting = [1])
    (hrn : D.rhsNonContracting = [1]) (hlb : D.lhsBatch = []) (hrb : D.rhsBatch = []) (prec : Option ContractPrecision)
    (l : FVec Ideal ⟨2, ![K, M]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 k a) * r (ix2 k b) := by
  show FloatOps.matmul D prec l r (constant ⟨2, ![M, N]⟩ .f32 0x00000000#32) (ix2 a b) = _
  rw [Ideal.matmul_constant_zero_apply]
  exact rows_sum D hlc hrc hln hrn hlb hrb l r a b

end RowsDot

theorem pay3_apply (j : S64x128.Idx) : (k2_pay3 (F := Ideal)) j = 0 := by
  unfold k2_pay3
  refine (congrFun (shapeCast_self _ _) j).trans ?_
  exact Ideal.ofBits_zero_f32

theorem pay4_apply (j : S64x128.Idx) : (k2_pay4 (F := Ideal)) j = 0 := by
  unfold k2_pay4
  refine (congrFun (shapeCast_self _ _) j).trans ?_
  exact Ideal.ofBits_zero_f32

theorem ofBits_one_bf16 : Ideal.ofBits .bf16 0x3F80#16 = 1 := by
  simp [Ideal.ofBits, Ideal.ieee, -EReal.coe_mul]; norm_num

theorem ofBits_one_f32 : Ideal.ofBits .f32 0x3F800000#32 = 1 := by
  simp [Ideal.ofBits, Ideal.ieee, -EReal.coe_mul]; norm_num

theorem pay7_apply (j : S5000x128.Idx) : (k2_pay7 (F := Ideal)) j = 1 := by
  unfold k2_pay7
  exact ofBits_one_bf16

theorem row_in_range (t q : ℕ) (ht : t < 10) (hq : q < 5000) :
    (IntOp.addi (Scalar.muli (BitVec.ofNat 32 t) 5000#32) (BitVec.ofNat 32 q)).slt 50000#32 = true := by
  show (BitVec.ofNat 32 t * 5000#32 + BitVec.ofNat 32 q).slt 50000#32 = true
  have hx : (BitVec.ofNat 32 t * 5000#32 + BitVec.ofNat 32 q).toNat = t * 5000 + q := by
    simp only [BitVec.toNat_add, BitVec.toNat_mul, BitVec.toNat_ofNat]; omega
  rw [BitVec.slt_iff_toInt_lt, BitVec.toInt_eq_toNat_of_lt (by rw [hx]; omega), hx]
  show ((t * 5000 + q : ℕ) : ℤ) < 50000
  omega

theorem indicator_word (w v : BitVec 32) :
    (((((IntOp.andi (IntOp.cmpi .eq w v) (BitVec.ofBool true)).setWidth 32).toInt : ℝ) : EReal)) = if w = v then 1 else 0 := by
  by_cases h : w = v
  · subst h
    rw [if_pos rfl]
    have : (IntOp.andi (IntOp.cmpi .eq w w) (BitVec.ofBool true)).setWidth 32 = 1#32 := by
      simp [IntOp.andi, IntOp.cmpi]
    rw [this]
    norm_num
  · rw [if_neg h]
    have hb : (w == v) = false := beq_eq_false_iff_ne.mpr h
    have : (IntOp.andi (IntOp.cmpi .eq w v) (BitVec.ofBool true)).setWidth 32 = 0#32 := by
      simp [IntOp.andi, IntOp.cmpi, hb]
    rw [this]
    norm_num

theorem pay5_apply (i : grid2.Coords) (v14 : Vec Ideal S5000x1 .i32) (q : Fin 5000) (g : Fin 64) :
    k2_pay5 (F := Ideal) i v14 (ix2 q g) = if v14 (ix2 q (0 : Fin 1)) = BitVec.ofNat 32 g.val then 1 else 0 := by
  unfold k2_pay5
  dsimp only
  have hcol : broadcastTo S5000x64 (shapeCast S5000x1 v14 shapeCasts_S5000x1_S5000x1) broadcasts_S5000x1_S5000x64 (ix2 q g)
      = v14 (ix2 q (0 : Fin 1)) :=
    (Cert.LibColumn.broadcastTo_a1_ab_apply _ broadcasts_S5000x1_S5000x64 q g).trans
      (congrFun (shapeCast_self v14 shapeCasts_S5000x1_S5000x1) _)
  have hio1 : iota .tc S5000x64 32 [1] iota_S5000x64_d1_w32 (ix2 q g) = BitVec.ofNat 32 g.val :=
    iota_single_apply .tc S5000x64 32 1 iota_S5000x64_d1_w32 (ix2 q g)
  have hio0 : iota .tc S5000x64 32 [0] iota_S5000x64_d0_w32 (ix2 q g) = BitVec.ofNat 32 q.val :=
    iota_single_apply .tc S5000x64 32 0 iota_S5000x64_d0_w32 (ix2 q g)
  have hrow : IntOp.cmpi .slt (IntOp.addi (Scalar.muli (BitVec.ofNat 32 (i 0).val) 5000#32) (BitVec.ofNat 32 q.val)) 50000#32
      = BitVec.ofBool true :=
    congrArg BitVec.ofBool (row_in_range (i 0).val q.val (i 0).isLt q.isLt)
  show ((((IntOp.andi (IntOp.cmpi .eq (broadcastTo S5000x64 (shapeCast S5000x1 v14 shapeCasts_S5000x1_S5000x1) broadcasts_S5000x1_S5000x64 (ix2 q g))
      (iota .tc S5000x64 32 [1] iota_S5000x64_d1_w32 (ix2 q g)))
      (IntOp.cmpi .slt (IntOp.addi (Scalar.muli (BitVec.ofNat 32 (i 0).val) 5000#32) (iota .tc S5000x64 32 [0] iota_S5000x64_d0_w32 (ix2 q g))) 50000#32)).setWidth 32).toInt : ℝ) : EReal) = _
  rw [hcol, hio1, hio0, hrow]
  exact indicator_word _ _

def oneHot (v14 : Vec Ideal S5000x1 .i32) (q : Fin 5000) (g : Fin 64) : EReal :=
  if v14 (ix2 q (0 : Fin 1)) = BitVec.ofNat 32 g.val then 1 else 0

theorem pay6_apply (i : grid2.Coords) (v3 : Vec Ideal S5000x128 .f32) (v5 : Vec Ideal S5000x1 .f32) (v9 : Vec Ideal S128 .f32)
    (v14 : Vec Ideal S5000x1 .i32) (v29 : Vec Ideal S64x128 .f32) (g : Fin 64) (f : Fin 128) :
    k2_pay6 (F := Ideal) i v3 v5 v9 v14 v29 (ix2 g f)
      = v29 (ix2 g f) + ∑ q : Fin 5000, oneHot v14 q g * (v3 (ix2 q f) * v5 (ix2 q (0 : Fin 1)) + v9 (ix1 f)) := by
  unfold k2_pay6
  refine (congrFun (shapeCast_self _ shapeCasts_S64x128_S64x128) (ix2 g f)).trans ?_
  refine congrArg (v29 (ix2 g f) + ·) ?_
  refine (matmul_rows_apply dot_S5000x64_S5000x128_S64x128_0_0_1_1_n_n rfl rfl rfl rfl rfl rfl none _ _ g f).trans ?_
  refine Finset.sum_congr rfl fun q _ => ?_
  refine congrArg₂ (· * ·) (pay5_apply i v14 q g) ?_
  refine congrArg₂ (· + ·) (congrArg₂ (· * ·) (congrFun (shapeCast_self v3 shapeCasts_S5000x128_S5000x128) (ix2 q f)) ?_) ?_
  · exact (Cert.LibColumn.broadcastTo_a1_ab_apply _ broadcasts_S5000x1_S5000x128 q f).trans
      (congrFun (shapeCast_self v5 shapeCasts_S5000x1_S5000x1) _)
  · exact (broadcastTo_1b_ab_apply _ broadcasts_S1x128_S5000x128 q f).trans
      (shapeCast_a_1a_apply v9 shapeCasts_S128_S1x128 0 f)

theorem pay1_apply (v28 : FVec Ideal S5000x64 .bf16) (v35 : FVec Ideal S5000x128 .bf16) (v36 : Vec Ideal S64x128 .f32)
    (g : Fin 64) (f : Fin 128) :
    k2_pay1 (F := Ideal) v28 v35 v36 (constant (F := Ideal) S64x128 .f32 0x00000000#32) (ix2 g f)
      = v36 (ix2 g f) + ∑ q : Fin 5000, v28 (ix2 q g) * v35 (ix2 q f) := by
  unfold k2_pay1
  refine (congrFun (shapeCast_self _ shapeCasts_S64x128_S64x128) (ix2 g f)).trans ?_
  refine congrArg (v36 (ix2 g f) + ·) ?_
  exact matmul_rows_apply dot_S5000x64_S5000x128_S64x128_0_0_1_1_n_n rfl rfl rfl rfl rfl rfl none v28 v35 g f

theorem pay2_apply (v45 v46 : Vec Ideal S64x128 .f32) (v51 : Vec Ideal S128x10 .f32) (v54 : Vec Ideal S10 .f32)
    (g : Fin 64) (j : Fin 10) :
    k2_pay2 (F := Ideal) v45 v46 v51 v54 (ix2 g j)
      = (∑ f : Fin 128, Ideal.div (v45 (ix2 g f)) (max 1 (v46 (ix2 g f))) * v51 (ix2 f j)) + v54 (ix1 j) := by
  unfold k2_pay2
  refine congrArg₂ (· + ·) ?_ ?_
  · refine (Cert.LibDot.matmul_plain_apply dot_S64x128_S128x10_S64x10_1_0_0_1_n_n rfl rfl rfl rfl rfl rfl none _ _ g j).trans ?_
    refine Finset.sum_congr rfl fun f _ => ?_
    refine congrArg (· * v51 (ix2 f j)) ?_
    show Ideal.div (v45 (ix2 g f)) (max (Ideal.ofBits .f32 0x3F800000#32) (v46 (ix2 g f))) = _
    rw [ofBits_one_f32]
  · exact (broadcastTo_1b_ab_apply _ broadcasts_S1x10_S64x10 g j).trans
      (shapeCast_a_1a_apply v54 shapeCasts_S10_S1x10 0 j)

end Cert.KernelIdeal.HandV.Pool

end
-- ==== Proof.LibSumBlocks.lean ====
import Mathlib.Algebra.BigOperators.Fin
import Mathlib.Logic.Equiv.Fin.Basic

namespace Cert.LibSumBlocks

theorem sum_fin_mul {M : Type*} [AddCommMonoid M] (p q : ℕ) (R : ℕ → M) :
    ∑ b : Fin (p * q), R b.val = ∑ t ∈ Finset.range p, ∑ r : Fin q, R (t * q + r.val) := by
  rw [Finset.sum_range, ← Equiv.sum_comp finProdFinEquiv, Fintype.sum_prod_type]
  refine Finset.sum_congr rfl fun t _ => Finset.sum_congr rfl fun r _ => ?_
  refine congrArg R ?_
  rw [finProdFinEquiv_apply_val, Nat.mul_comm, Nat.add_comm]

end Cert.LibSumBlocks
-- ==== Proof.KI.PoolSum.lean ====
import proofs.«428257_j47124381171999_2_alg».proof.Proof.Spec
import proofs.«428257_j47124381171999_2_alg».proof.Proof.LibSumBlocks

noncomputable section

namespace Cert.KernelIdeal.HandV.Pool

open Idealize.ShloMosaic Idealize.ShloMosaic.ValueIdx Cert.Spec

theorem toInt_eq_iff_word (w : BitVec 32) (g : Fin 64) : w.toInt = (g.val : ℤ) ↔ w = BitVec.ofNat 32 g.val := by
  have hg : (BitVec.ofNat 32 g.val).toInt = (g.val : ℤ) := by
    have hn : (BitVec.ofNat 32 g.val).toNat = g.val := by
      rw [BitVec.toNat_ofNat]; exact Nat.mod_eq_of_lt (by have := g.isLt; omega)
    rw [BitVec.toInt_eq_toNat_of_lt (by rw [hn]; have := g.isLt; omega), hn]
  constructor
  · intro h; exact BitVec.toInt_inj.mp (h.trans hg.symm)
  · intro h; rw [h]; exact hg

theorem inGraph_iff_word (gid : I2 50000 1 → BitVec 32) (r : Fin 50000) (g : Fin 64) :
    inGraph gid r g ↔ gid (ix2 r 0) = BitVec.ofNat 32 g.val := toInt_eq_iff_word _ g

def isWord (w : BitVec 32) (g : Fin 64) : EReal := if w = BitVec.ofNat 32 g.val then 1 else 0

def sumTerm (agg : I2 50000 128 → EReal) (nd : I2 50000 1 → EReal) (b : I1 128 → EReal) (gid : I2 50000 1 → BitVec 32)
    (g : Fin 64) (f : Fin 128) (r : ℕ) : EReal :=
  if h : r < 50000 then (if inGraph gid ⟨r, h⟩ g then h2At agg nd b ⟨r, h⟩ f else 0) else 0

def cntTerm (gid : I2 50000 1 → BitVec 32) (g : Fin 64) (r : ℕ) : EReal :=
  if h : r < 50000 then (if inGraph gid ⟨r, h⟩ g then (1 : EReal) else 0) else 0

theorem sumTerm_of_lt (agg : I2 50000 128 → EReal) (nd : I2 50000 1 → EReal) (b : I1 128 → EReal) (gid : I2 50000 1 → BitVec 32)
    (g : Fin 64) (f : Fin 128) (r : ℕ) (h : r < 50000) :
    sumTerm agg nd b gid g f r
      = isWord (gid (ix2 ⟨r, h⟩ 0)) g * (agg (ix2 ⟨r, h⟩ f) * nd (ix2 ⟨r, h⟩ 0) + b (ix1 f)) := by
  unfold sumTerm isWord
  rw [dif_pos h]
  by_cases hw : gid (ix2 (⟨r, h⟩ : Fin 50000) 0) = BitVec.ofNat 32 g.val
  · rw [if_pos ((inGraph_iff_word gid ⟨r, h⟩ g).mpr hw), if_pos hw, one_mul]; rfl
  · rw [if_neg (fun hh => hw ((inGraph_iff_word gid ⟨r, h⟩ g).mp hh)), if_neg hw, zero_mul]

theorem cntTerm_of_lt (gid : I2 50000 1 → BitVec 32) (g : Fin 64) (r : ℕ) (h : r < 50000) :
    cntTerm gid g r = isWord (gid (ix2 ⟨r, h⟩ 0)) g * 1 := by
  unfold cntTerm isWord
  rw [dif_pos h, mul_one]
  by_cases hw : gid (ix2 (⟨r, h⟩ : Fin 50000) 0) = BitVec.ofNat 32 g.val
  · rw [if_pos ((inGraph_iff_word gid ⟨r, h⟩ g).mpr hw), if_pos hw]
  · rw [if_neg (fun hh => hw ((inGraph_iff_word gid ⟨r, h⟩ g).mp hh)), if_neg hw]

theorem sumAt_blocks (agg : I2 50000 128 → EReal) (nd : I2 50000 1 → EReal) (b : I1 128 → EReal) (gid : I2 50000 1 → BitVec 32)
    (g : Fin 64) (f : Fin 128) :
    sumAt agg nd b gid g f = ∑ t ∈ Finset.range 10, ∑ q : Fin 5000, sumTerm agg nd b gid g f (t * 5000 + q.val) := by
  rw [← Cert.LibSumBlocks.sum_fin_mul 10 5000 (sumTerm agg nd b gid g f)]
  unfold sumAt
  refine Finset.sum_congr rfl fun r _ => ?_
  unfold sumTerm
  rw [dif_pos r.isLt]

theorem cntAt_blocks (gid : I2 50000 1 → BitVec 32) (g : Fin 64) :
    cntAt gid g = ∑ t ∈ Finset.range 10, ∑ q : Fin 5000, cntTerm gid g (t * 5000 + q.val) := by
  rw [← Cert.LibSumBlocks.sum_fin_mul 10 5000 (cntTerm gid g)]
  unfold cntAt
  refine Finset.sum_congr rfl fun r _ => ?_
  unfold cntTerm
  rw [dif_pos r.isLt]

end Cert.KernelIdeal.HandV.Pool

end
-- ==== Proof.KI.Val2.lean ====
import proofs.«428257_j47124381171999_2_alg».proof.Proof.KI.R2
import proofs.«428257_j47124381171999_2_alg».proof.Proof.KI.PoolPay
import proofs.«428257_j47124381171999_2_alg».proof.Proof.KI.PoolSum
import proofs.«428257_j47124381171999_2_alg».proof.Proof.Spec
import Idealize.ShloMosaic.Lib.Pipeline.Value
import Idealize.ShloMosaic.Lib.ValueIdx

noncomputable section

namespace Cert.KernelIdeal.HandV.Pool

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

abbrev aggArr (c : Dev nD) : Vec Ideal S50000x128 .f32 := V c main_v34
abbrev ndArr (c : Dev nD) : Vec Ideal S50000x1 .f32 := V c main_v12
abbrev biasArr (c : Dev nD) : Vec Ideal S128 .f32 := V c main_arg7
abbrev gidArr (c : Dev nD) : Vec Ideal S50000x1 .i32 := V c main_v35
abbrev clsArr (c : Dev nD) : Vec Ideal S128x10 .f32 := V c main_arg8
abbrev clsBiasArr (c : Dev nD) : Vec Ideal S10 .f32 := V c main_arg9

abbrev aggBlk (c : Dev nD) (t : Fin cfg2.N) : Vec Ideal S5000x128 .f32 := iblk2 V c 0 t
abbrev ndBlk (c : Dev nD) (t : Fin cfg2.N) : Vec Ideal S5000x1 .f32 := iblk2 V c 1 t
abbrev biasBlk (c : Dev nD) (t : Fin cfg2.N) : Vec Ideal S128 .f32 := iblk2 V c 2 t
abbrev gidBlk (c : Dev nD) (t : Fin cfg2.N) : Vec Ideal S5000x1 .i32 := iblk2 V c 3 t
abbrev clsBlk (c : Dev nD) (t : Fin cfg2.N) : Vec Ideal S128x10 .f32 := iblk2 V c 4 t
abbrev clsBiasBlk (c : Dev nD) (t : Fin cfg2.N) : Vec Ideal S10 .f32 := iblk2 V c 5 t

theorem index_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ win2_2.index t (0 : Fin 1) = 0
    ∧ (win2_3.index t (0 : Fin 2) = t.val ∧ win2_3.index t (1 : Fin 2) = 0)
    ∧ (win2_4.index t (0 : Fin 2) = 0 ∧ win2_4.index t (1 : Fin 2) = 0)
    ∧ win2_5.index t (0 : Fin 1) = 0 :=
  (by decide +kernel : ∀ t : Fin grid2.N, _)

theorem aggBlk_apply (c : Dev nD) (t : Fin cfg2.N) (q : Fin 5000) (f : Fin 128) (r : Fin 50000) (hr : r.val = t.val * 5000 + q.val) :
    aggBlk V c t (ix2 q f) = aggArr V c (ix2 r f) := by
  obtain ⟨⟨e0, e1⟩, -⟩ := index_facts t
  show iblk2 V c 0 t (ix2 q f) = _
  unfold iblk2
  rw [View.read_apply]
  show V c main_v34 _ = V c main_v34 _
  congr 1
  funext a
  apply Fin.ext
  match a with
  | ⟨0, _⟩ => show win2_0.index t (0 : Fin 2) * 5000 + 1 * q.val = r.val; rw [e0, hr]; omega
  | ⟨1, _⟩ => show win2_0.index t (1 : Fin 2) * 128 + 1 * f.val = f.val; rw [e1]; omega

theorem ndBlk_apply (c : Dev nD) (t : Fin cfg2.N) (q : Fin 5000) (r : Fin 50000) (hr : r.val = t.val * 5000 + q.val) :
    ndBlk V c t (ix2 q (0 : Fin 1)) = ndArr V c (ix2 r (0 : Fin 1)) := by
  obtain ⟨-, ⟨e0, e1⟩, -⟩ := index_facts t
  show iblk2 V c 1 t (ix2 q (0 : Fin 1)) = _
  unfold iblk2
  rw [View.read_apply]
  show V c main_v12 _ = V c main_v12 _
  congr 1
  funext a
  apply Fin.ext
  match a with
  | ⟨0, _⟩ => show win2_1.index t (0 : Fin 2) * 5000 + 1 * q.val = r.val; rw [e0, hr]; omega
  | ⟨1, _⟩ => show win2_1.index t (1 : Fin 2) * 1 + 1 * 0 = 0; rw [e1]

theorem gidBlk_apply (c : Dev nD) (t : Fin cfg2.N) (q : Fin 5000) (r : Fin 50000) (hr : r.val = t.val * 5000 + q.val) :
    gidBlk V c t (ix2 q (0 : Fin 1)) = gidArr V c (ix2 r (0 : Fin 1)) := by
  obtain ⟨-, -, -, ⟨e0, e1⟩, -⟩ := index_facts t
  show iblk2 V c 3 t (ix2 q (0 : Fin 1)) = _
  unfold iblk2
  rw [View.read_apply]
  show V c main_v35 _ = V c main_v35 _
  congr 1
  funext a
  apply Fin.ext
  match a with
  | ⟨0, _⟩ => show win2_3.index t (0 : Fin 2) * 5000 + 1 * q.val = r.val; rw [e0, hr]; omega
  | ⟨1, _⟩ => show win2_3.index t (1 : Fin 2) * 1 + 1 * 0 = 0; rw [e1]

theorem biasBlk_apply (c : Dev nD) (t : Fin cfg2.N) (f : Fin 128) : biasBlk V c t (ix1 f) = biasArr V c (ix1 f) := by
  obtain ⟨-, -, e0, -⟩ := index_facts t
  show iblk2 V c 2 t (ix1 f) = _
  unfold iblk2
  rw [View.read_apply]
  show V c main_arg7 _ = V c main_arg7 _
  congr 1
  funext a
  apply Fin.ext
  match a with
  | ⟨0, _⟩ => show win2_2.index t (0 : Fin 1) * 128 + 1 * f.val = f.val; rw [e0]; omega

theorem clsBlk_apply (c : Dev nD) (t : Fin cfg2.N) (f : Fin 128) (j : Fin 10) : clsBlk V c t (ix2 f j) = clsArr V c (ix2 f j) := by
  obtain ⟨-, -, -, -, ⟨e0, e1⟩, -⟩ := index_facts t
  show iblk2 V c 4 t (ix2 f j) = _
  unfold iblk2
  rw [View.read_apply]
  show V c main_arg8 _ = V c main_arg8 _
  congr 1
  funext a
  apply Fin.ext
  match a with
  | ⟨0, _⟩ => show win2_4.index t (0 : Fin 2) * 128 + 1 * f.val = f.val; rw [e0]; omega
  | ⟨1, _⟩ => show win2_4.index t (1 : Fin 2) * 10 + 1 * j.val = j.val; rw [e1]; omega

theorem clsBiasBlk_apply (c : Dev nD) (t : Fin cfg2.N) (j : Fin 10) : clsBiasBlk V c t (ix1 j) = clsBiasArr V c (ix1 j) := by
  obtain ⟨-, -, -, -, -, e0⟩ := index_facts t
  show iblk2 V c 5 t (ix1 j) = _
  unfold iblk2
  rw [View.read_apply]
  show V c main_arg9 _ = V c main_arg9 _
  congr 1
  funext a
  apply Fin.ext
  match a with
  | ⟨0, _⟩ => show win2_5.index t (0 : Fin 1) * 10 + 1 * j.val = j.val; rw [e0]; omega

theorem block_sumTerm (c : Dev nD) (t : Fin cfg2.N) (q : Fin 5000) (g : Fin 64) (f : Fin 128) :
    oneHot (gidBlk V c t) q g * (aggBlk V c t (ix2 q f) * ndBlk V c t (ix2 q (0 : Fin 1)) + biasBlk V c t (ix1 f))
      = sumTerm (aggArr V c) (ndArr V c) (biasArr V c) (gidArr V c) g f (t.val * 5000 + q.val) := by
  have hN : cfg2.N = 10 := N_2
  have hlt : t.val * 5000 + q.val < 50000 := by have := t.isLt; have := q.isLt; omega
  rw [sumTerm_of_lt (aggArr V c) (ndArr V c) (biasArr V c) (gidArr V c) g f _ hlt]
  unfold oneHot isWord
  rw [gidBlk_apply V c t q ⟨_, hlt⟩ rfl, aggBlk_apply V c t q f ⟨_, hlt⟩ rfl, ndBlk_apply V c t q ⟨_, hlt⟩ rfl, biasBlk_apply V c t f]

theorem block_cntTerm (c : Dev nD) (t : Fin cfg2.N) (q : Fin 5000) (g : Fin 64) (f : Fin 128) :
    k2_pay5 (F := Ideal) (cfg2.grid.coords t) (gidBlk V c t) (ix2 q g) * (k2_pay7 (F := Ideal)) (ix2 q f)
      = cntTerm (gidArr V c) g (t.val * 5000 + q.val) := by
  have hN : cfg2.N = 10 := N_2
  have hlt : t.val * 5000 + q.val < 50000 := by have := t.isLt; have := q.isLt; omega
  rw [cntTerm_of_lt (gidArr V c) g _ hlt, pay5_apply (cfg2.grid.coords t) (gidBlk V c t) q g, pay7_apply (ix2 q f)]
  unfold isWord
  rw [gidBlk_apply V c t q ⟨_, hlt⟩ rfl]

theorem sums_after (c : Dev nD) : ∀ (n : ℕ) (h : n < cfg2.N) (g : Fin 64) (f : Fin 128),
    (outsAt2 V c n h).2.1 (ix2 g f)
      = ∑ t ∈ Finset.range (n + 1), ∑ q : Fin 5000,
          sumTerm (aggArr V c) (ndArr V c) (biasArr V c) (gidArr V c) g f (t * 5000 + q.val)
  | 0, h, g, f => by
    refine (congrFun (sc0_zero V c h) (ix2 g f)).trans ?_
    refine (pay6_apply (cfg2.grid.coords ⟨0, h⟩) (aggBlk V c ⟨0, h⟩) (ndBlk V c ⟨0, h⟩) (biasBlk V c ⟨0, h⟩) (gidBlk V c ⟨0, h⟩)
      (k2_pay3 (F := Ideal)) g f).trans ?_
    rw [pay3_apply, zero_add, Finset.sum_range_one]
    exact Finset.sum_congr rfl fun q _ => block_sumTerm V c ⟨0, h⟩ q g f
  | n + 1, h, g, f => by
    refine (congrFun (sc0_succ V c n h) (ix2 g f)).trans ?_
    refine (pay6_apply (cfg2.grid.coords ⟨n + 1, h⟩) (aggBlk V c ⟨n + 1, h⟩) (ndBlk V c ⟨n + 1, h⟩) (biasBlk V c ⟨n + 1, h⟩)
      (gidBlk V c ⟨n + 1, h⟩) (outsAt2 V c n (Nat.lt_of_succ_lt h)).2.1 g f).trans ?_
    rw [sums_after c n (Nat.lt_of_succ_lt h) g f, Finset.sum_range_succ _ (n + 1)]
    exact congrArg (_ + ·) (Finset.sum_congr rfl fun q _ => block_sumTerm V c ⟨n + 1, h⟩ q g f)

theorem counts_after (c : Dev nD) : ∀ (n : ℕ) (h : n < cfg2.N) (g : Fin 64) (f : Fin 128),
    (outsAt2 V c n h).2.2 (ix2 g f)
      = ∑ t ∈ Finset.range (n + 1), ∑ q : Fin 5000, cntTerm (gidArr V c) g (t * 5000 + q.val)
  | 0, h, g, f => by
    refine (congrFun (sc1_zero V c h) (ix2 g f)).trans ?_
    refine (pay1_apply (k2_pay5 (F := Ideal) (cfg2.grid.coords ⟨0, h⟩) (gidBlk V c ⟨0, h⟩)) (k2_pay7 (F := Ideal))
      (k2_pay4 (F := Ideal)) g f).trans ?_
    rw [pay4_apply, zero_add, Finset.sum_range_one]
    exact Finset.sum_congr rfl fun q _ => block_cntTerm V c ⟨0, h⟩ q g f
  | n + 1, h, g, f => by
    refine (congrFun (sc1_succ V c n h) (ix2 g f)).trans ?_
    refine (pay1_apply (k2_pay5 (F := Ideal) (cfg2.grid.coords ⟨n + 1, h⟩) (gidBlk V c ⟨n + 1, h⟩)) (k2_pay7 (F := Ideal))
      (outsAt2 V c n (Nat.lt_of_succ_lt h)).2.2 g f).trans ?_
    rw [counts_after c n (Nat.lt_of_succ_lt h) g f, Finset.sum_range_succ _ (n + 1)]
    exact congrArg (_ + ·) (Finset.sum_congr rfl fun q _ => block_cntTerm V c ⟨n + 1, h⟩ q g f)

abbrev logits (c : Dev nD) : Buf (Elt Ideal) ((c : Thread nD τ).loc main_v36) :=
  Cert.Spec.pool (aggArr V c) (ndArr V c) (biasArr V c) (gidArr V c) (clsArr V c) (clsBiasArr V c)

theorem out_after_last (c : Dev nD) (h : 9 < cfg2.N) : (outsAt2 V c 9 h).1 = logits V c := by
  funext i
  obtain ⟨g, j, rfl⟩ : ∃ (g : Fin 64) (j : Fin 10), i = ix2 g j := ⟨i 0, i 1, eq_ix2 i⟩
  refine (congrFun (out_last V c h) (ix2 g j)).trans ?_
  refine (pay2_apply (outsAt2 V c 9 h).2.1 (outsAt2 V c 9 h).2.2 (clsBlk V c ⟨9, h⟩) (clsBiasBlk V c ⟨9, h⟩) g j).trans ?_
  show _ = Cert.Spec.poolAt (aggArr V c) (ndArr V c) (biasArr V c) (gidArr V c) (clsArr V c) (clsBiasArr V c) g j
  unfold Cert.Spec.poolAt
  refine congrArg₂ (· + ·) (Finset.sum_congr rfl fun f _ => ?_) (clsBiasBlk_apply V c ⟨9, h⟩ j)
  have hs : (outsAt2 V c 9 h).2.1 (ix2 g f) = Cert.Spec.sumAt (aggArr V c) (ndArr V c) (biasArr V c) (gidArr V c) g f :=
    (sums_after V c 9 h g f).trans (sumAt_blocks (aggArr V c) (ndArr V c) (biasArr V c) (gidArr V c) g f).symm
  have hc : (outsAt2 V c 9 h).2.2 (ix2 g f) = Cert.Spec.cntAt (gidArr V c) g :=
    (counts_after V c 9 h g f).trans (cntAt_blocks (gidArr V c) g).symm
  rw [hs, hc, clsBlk_apply V c ⟨9, h⟩ f j]

theorem out_at_last (c : Dev nD) : (outsAt2 V c t2_9.val t2_9.isLt).1 = logits V c := out_after_last V c t2_9.isLt

theorem flushed_eq (c : Dev nD) (t : Fin cfg2.N) (hf : (cfg2.win 6).flush t = true) :
    (dat2 V c).flushed 6 t = ((cfg2.win 6).blk t).view.read (Elt Ideal) (logits V c) := by
  have hN : cfg2.N = 10 := N_2
  have h9 : t.val = 9 := by have := (flush2_6 t).mp hf; have := t.isLt; omega
  obtain rfl : t = t2_9 := Fin.ext h9
  show (cfg2.win 6).cut (grid2.coords t2_9) ((dat2 V c).after 6 t2_9) = _
  rw [after2_6, out_at_last]
  have hz' : (fun a => win2_6.index t2_9 a * main_v36.ty.shape.size a) = fun _ => 0 := funext fun a => by fin_cases a <;> decide
  exact (Memref.read_access_unit_zero (Elt Ideal) main_v36 hz' (fun a => by rw [congrFun hz' a]; simp) (logits V c)).symm

theorem arr_eq_pool (c : Dev nD) :
    (Hand.dat2 (F := Ideal) V c).arrAt 6 cfg2.N
      = Cert.Spec.pool (V c main_v34) (V c main_v12) (V c main_arg7) (V c main_v35) (V c main_arg8) (V c main_arg9) :=
  (dat2 V c).arrAt_eq_of_cover 6 (logits V c) (flushed_eq V c) fun i =>
    ⟨t2_9, (flush2_6 t2_9).mpr rfl, by
      show i ∈ ((View.whole main_v36).slice (win2_6.rect t2_9)).set
      rw [View.set_slice_whole, Rect.mem_set_unit]
      intro a
      have h0 : (i 0 : Nat) < 64 := (i 0).isLt
      have h1 : (i 1 : Nat) < 10 := (i 1).isLt
      match a with
      | ⟨0, _⟩ => show win2_6.index t2_9 0 * win2_6.size 0 ≤ (i 0 : Nat) ∧ (i 0 : Nat) < win2_6.index t2_9 0 * win2_6.size 0 + win2_6.xsize (grid2.coords t2_9) 0
                  rw [show win2_6.index t2_9 0 * win2_6.size 0 = 0 from by decide +kernel, show win2_6.xsize (grid2.coords t2_9) 0 = 64 from by decide +kernel]; omega
      | ⟨1, _⟩ => show win2_6.index t2_9 1 * win2_6.size 1 ≤ (i 1 : Nat) ∧ (i 1 : Nat) < win2_6.index t2_9 1 * win2_6.size 1 + win2_6.xsize (grid2.coords t2_9) 1
                  rw [show win2_6.index t2_9 1 * win2_6.size 1 = 0 from by decide +kernel, show win2_6.xsize (grid2.coords t2_9) 1 = 10 from by decide +kernel]; omega⟩

end Cert.KernelIdeal.HandV.Pool

namespace Cert.KernelIdeal.HandV

open Cert.KernelIdeal Cert.KernelIdeal.Gen
open Idealize.ShloMosaic Idealize.ShloMosaic.TcCoe

theorem arr2 (V : (c : Dev nD) → (b : Ref sig .tc) → Buf (Elt Ideal) ((c : Thread nD τ).loc b)) (c : Dev nD) :
    (Hand.dat2 (F := Ideal) V c).arrAt 6 cfg2.N
      = Cert.Spec.pool (V c main_v34) (V c main_v12) (V c main_arg7) (V c main_v35) (V c main_arg8) (V c main_arg9) :=
  Pool.arr_eq_pool V c

end Cert.KernelIdeal.HandV

end
-- ==== Proof.KI.KVal.lean ====
import proofs.«428257_j47124381171999_2_alg».proof.Proof.KI.Fold
import proofs.«428257_j47124381171999_2_alg».proof.Proof.KI.HostRead
import proofs.«428257_j47124381171999_2_alg».proof.Proof.Spec
import proofs.«428257_j47124381171999_2_alg».proof.Proof.KI.Val0
import proofs.«428257_j47124381171999_2_alg».proof.Proof.KI.Val1
import proofs.«428257_j47124381171999_2_alg».proof.Proof.KI.Val2

noncomputable section

namespace Cert.KernelIdeal.HandV

open Cert.KernelIdeal Cert.KernelIdeal.Gen Cert.KernelIdeal.Hand Cert.KernelIdeal.HandH
open Idealize.ShloMosaic Idealize.ShloMosaic.TcCoe Idealize.ShloMosaic.StableHlo

variable (m : (ℓ : Loc nD τ sig) → Buf (Elt Ideal) ℓ) (ρ : Dev nD → PrngReg)

theorem W9_of_W5 (c : Dev nD) (r : Ref sig .tc) (h1 : r ∉ hostOps1_W) (h2 : r ∉ hostOps2_W) (h13 : r ≠ main_v13) (h24 : r ≠ main_v24) :
    W9 m ρ c (Proc.devRef .tc r) = W5 m ρ c (Proc.devRef .tc r) :=
  (after2_of (W8 m ρ c) r h2).trans <| (W8_off m ρ c r h24).trans <| (after1_of (W6 m ρ c) r h1).trans <| W6_off m ρ c r h13

theorem W7_of_W5 (c : Dev nD) (r : Ref sig .tc) (h1 : r ∉ hostOps1_W) (h13 : r ≠ main_v13) :
    W7 m ρ c (Proc.devRef .tc r) = W5 m ρ c (Proc.devRef .tc r) :=
  (after1_of (W6 m ρ c) r h1).trans <| W6_off m ρ c r h13

theorem W8_of_W5 (c : Dev nD) (r : Ref sig .tc) (h1 : r ∉ hostOps1_W) (h13 : r ≠ main_v13) (h24 : r ≠ main_v24) :
    W8 m ρ c (Proc.devRef .tc r) = W5 m ρ c (Proc.devRef .tc r) :=
  (W8_off m ρ c r h24).trans <| W7_of_W5 m ρ c r h1 h13

theorem W5_of_W0 (c : Dev nD) (r : Ref sig .tc) (h0 : r ∉ hostOps0_W) (h1 : r ∉ hostOps0_1_W) (h2 : r ∉ hostOps0_2_W) (h3 : r ∉ hostOps0_3_W)
    (h4 : r ∉ hostOps0_4_W) : W5 m ρ c (Proc.devRef .tc r) = W0 m ρ c (Proc.devRef .tc r) :=
  X5_of (W0 m ρ c) r h0 h1 h2 h3 h4

theorem v13_eq (c : Dev nD) : (W6 m ρ c (Proc.devRef .tc main_v13) : S50000x128.Idx → EReal)
    = Cert.Spec.hw (m ((c : Thread nD τ).loc main_arg3)) (m ((c : Thread nD τ).loc main_arg4)) (normOf (F := Ideal) (m ((c : Thread nD τ).loc main_arg0))) := by
  rw [W6_main_v13, arr0]
  show Cert.Spec.hw (W5 m ρ c (Proc.devRef .tc main_arg3)) (W5 m ρ c (Proc.devRef .tc main_arg4)) (W5 m ρ c (Proc.devRef .tc main_v10)) = _
  rw [W5_of_W0 m ρ c main_arg3 (by decide) (by decide) (by decide) (by decide) (by decide),
    W5_of_W0 m ρ c main_arg4 (by decide) (by decide) (by decide) (by decide) (by decide)]
  rw [show W5 m ρ c (Proc.devRef .tc main_v10) = normOf (F := Ideal) (W0 m ρ c (Proc.devRef .tc main_arg0)) from X5_v10 (W0 m ρ c)]

theorem W5_v10 (c : Dev nD) : W5 m ρ c (Proc.devRef .tc main_v10) = normOf (F := Ideal) (m ((c : Thread nD τ).loc main_arg0)) :=
  X5_v10 (W0 m ρ c)
theorem W5_v12 (c : Dev nD) : W5 m ρ c (Proc.devRef .tc main_v12) = normOf (F := Ideal) (m ((c : Thread nD τ).loc main_arg1)) :=
  X5_v12 (W0 m ρ c)

theorem W5_arg (c : Dev nD) (r : Ref sig .tc) (h0 : r ∉ hostOps0_W) (h1 : r ∉ hostOps0_1_W) (h2 : r ∉ hostOps0_2_W) (h3 : r ∉ hostOps0_3_W)
    (h4 : r ∉ hostOps0_4_W) : W5 m ρ c (Proc.devRef .tc r) = m ((c : Thread nD τ).loc r) :=
  W5_of_W0 m ρ c r h0 h1 h2 h3 h4

theorem v23_eq (c : Dev nD) : (W7 m ρ c (Proc.devRef .tc main_v23) : S50000x128.Idx → EReal)
    = aggOf (F := Ideal) (m ((c : Thread nD τ).loc main_arg0)) (m ((c : Thread nD τ).loc main_arg1))
        (Cert.Spec.hw (m ((c : Thread nD τ).loc main_arg3)) (m ((c : Thread nD τ).loc main_arg4)) (normOf (F := Ideal) (m ((c : Thread nD τ).loc main_arg0)))) := by
  rw [show W7 m ρ c (Proc.devRef .tc main_v23) = aggOf (F := Ideal) (W6 m ρ c (Proc.devRef .tc main_arg0)) (W6 m ρ c (Proc.devRef .tc main_arg1)) (W6 m ρ c (Proc.devRef .tc main_v13))
    from after1_v23 (W6 m ρ c)]
  rw [v13_eq, W6_off m ρ c main_arg0 (by decide), W6_off m ρ c main_arg1 (by decide),
    W5_arg m ρ c main_arg0 (by decide) (by decide) (by decide) (by decide) (by decide),
    W5_arg m ρ c main_arg1 (by decide) (by decide) (by decide) (by decide) (by decide)]

theorem v24_eq (c : Dev nD) : (W8 m ρ c (Proc.devRef .tc main_v24) : S50000x128.Idx → EReal)
    = Cert.Spec.hw2 (aggOf (F := Ideal) (m ((c : Thread nD τ).loc main_arg0)) (m ((c : Thread nD τ).loc main_arg1))
          (Cert.Spec.hw (m ((c : Thread nD τ).loc main_arg3)) (m ((c : Thread nD τ).loc main_arg4)) (normOf (F := Ideal) (m ((c : Thread nD τ).loc main_arg0)))))
        (normOf (F := Ideal) (m ((c : Thread nD τ).loc main_arg1))) (m ((c : Thread nD τ).loc main_arg5)) (m ((c : Thread nD τ).loc main_arg6))
        (normOf (F := Ideal) (m ((c : Thread nD τ).loc main_arg0))) := by
  rw [W8_main_v24, arr1]
  show Cert.Spec.hw2 (W7 m ρ c (Proc.devRef .tc main_v23)) (W7 m ρ c (Proc.devRef .tc main_v12)) (W7 m ρ c (Proc.devRef .tc main_arg5))
    (W7 m ρ c (Proc.devRef .tc main_arg6)) (W7 m ρ c (Proc.devRef .tc main_v10)) = _
  rw [v23_eq, W7_of_W5 m ρ c main_v12 (by decide) (by decide), W7_of_W5 m ρ c main_arg5 (by decide) (by decide),
    W7_of_W5 m ρ c main_arg6 (by decide) (by decide), W7_of_W5 m ρ c main_v10 (by decide) (by decide), W5_v10, W5_v12,
    W5_arg m ρ c main_arg5 (by decide) (by decide) (by decide) (by decide) (by decide),
    W5_arg m ρ c main_arg6 (by decide) (by decide) (by decide) (by decide) (by decide)]

theorem v34_eq (c : Dev nD) : (W9 m ρ c (Proc.devRef .tc main_v34) : S50000x128.Idx → EReal)
    = aggOf (F := Ideal) (m ((c : Thread nD τ).loc main_arg0)) (m ((c : Thread nD τ).loc main_arg1))
        (Cert.Spec.hw2 (aggOf (F := Ideal) (m ((c : Thread nD τ).loc main_arg0)) (m ((c : Thread nD τ).loc main_arg1))
          (Cert.Spec.hw (m ((c : Thread nD τ).loc main_arg3)) (m ((c : Thread nD τ).loc main_arg4)) (normOf (F := Ideal) (m ((c : Thread nD τ).loc main_arg0)))))
        (normOf (F := Ideal) (m ((c : Thread nD τ).loc main_arg1))) (m ((c : Thread nD τ).loc main_arg5)) (m ((c : Thread nD τ).loc main_arg6))
        (normOf (F := Ideal) (m ((c : Thread nD τ).loc main_arg0)))) := by
  rw [show W9 m ρ c (Proc.devRef .tc main_v34) = aggOf (F := Ideal) (W8 m ρ c (Proc.devRef .tc main_arg0)) (W8 m ρ c (Proc.devRef .tc main_arg1)) (W8 m ρ c (Proc.devRef .tc main_v24))
    from after2_v34 (W8 m ρ c)]
  rw [v24_eq, W8_of_W5 m ρ c main_arg0 (by decide) (by decide) (by decide), W8_of_W5 m ρ c main_arg1 (by decide) (by decide) (by decide),
    W5_arg m ρ c main_arg0 (by decide) (by decide) (by decide) (by decide) (by decide),
    W5_arg m ρ c main_arg1 (by decide) (by decide) (by decide) (by decide) (by decide)]

theorem v35_eq (c : Dev nD) : (W9 m ρ c (Proc.devRef .tc main_v35) : S50000x1.Idx → BitVec 32) = gidCol (m ((c : Thread nD τ).loc main_arg2)) := by
  rw [show W9 m ρ c (Proc.devRef .tc main_v35) = gidCol (W8 m ρ c (Proc.devRef .tc main_arg2)) from after2_v35 (W8 m ρ c)]
  rw [W8_of_W5 m ρ c main_arg2 (by decide) (by decide) (by decide),
    W5_arg m ρ c main_arg2 (by decide) (by decide) (by decide) (by decide) (by decide)]

theorem result_eq (c : Dev nD) : (W10 m ρ c (Proc.devRef .tc main_v36) : S64x10.Idx → EReal)
    = Cert.Spec.pool
        (aggOf (F := Ideal) (m ((c : Thread nD τ).loc main_arg0)) (m ((c : Thread nD τ).loc main_arg1))
          (Cert.Spec.hw2 (aggOf (F := Ideal) (m ((c : Thread nD τ).loc main_arg0)) (m ((c : Thread nD τ).loc main_arg1))
            (Cert.Spec.hw (m ((c : Thread nD τ).loc main_arg3)) (m ((c : Thread nD τ).loc main_arg4)) (normOf (F := Ideal) (m ((c : Thread nD τ).loc main_arg0)))))
          (normOf (F := Ideal) (m ((c : Thread nD τ).loc main_arg1))) (m ((c : Thread nD τ).loc main_arg5)) (m ((c : Thread nD τ).loc main_arg6))
          (normOf (F := Ideal) (m ((c : Thread nD τ).loc main_arg0)))))
        (normOf (F := Ideal) (m ((c : Thread nD τ).loc main_arg1))) (m ((c : Thread nD τ).loc main_arg7)) (gidCol (m ((c : Thread nD τ).loc main_arg2)))
        (m ((c : Thread nD τ).loc main_arg8)) (m ((c : Thread nD τ).loc main_arg9)) := by
  rw [W10_main_v36, arr2]
  show Cert.Spec.pool (W9 m ρ c (Proc.devRef .tc main_v34)) (W9 m ρ c (Proc.devRef .tc main_v12)) (W9 m ρ c (Proc.devRef .tc main_arg7))
    (W9 m ρ c (Proc.devRef .tc main_v35)) (W9 m ρ c (Proc.devRef .tc main_arg8)) (W9 m ρ c (Proc.devRef .tc main_arg9)) = _
  rw [v34_eq, v35_eq, W9_of_W5 m ρ c main_v12 (by decide) (by decide) (by decide) (by decide), W5_v12,
    W9_of_W5 m ρ c main_arg7 (by decide) (by decide) (by decide) (by decide), W9_of_W5 m ρ c main_arg8 (by decide) (by decide) (by decide) (by decide),
    W9_of_W5 m ρ c main_arg9 (by decide) (by decide) (by decide) (by decide),
    W5_arg m ρ c main_arg7 (by decide) (by decide) (by decide) (by decide) (by decide),
    W5_arg m ρ c main_arg8 (by decide) (by decide) (by decide) (by decide) (by decide),
    W5_arg m ρ c main_arg9 (by decide) (by decide) (by decide) (by decide) (by decide)]

end Cert.KernelIdeal.HandV

end
-- ==== Proof.Ref.Imports.lean ====
import proofs.«428257_j47124381171999_2_alg».proof.Proof.Gen.ReferenceIdeal.Run
import proofs.«428257_j47124381171999_2_alg».proof.Proof.Gen.ReferenceIdeal.Read
-- ==== Proof.Ref.RefChains.lean ====
import proofs.«428257_j47124381171999_2_alg».proof.Proof.Gen.ReferenceIdeal
import Idealize.ShloMosaic.PureOps.Ideal

noncomputable section

namespace Cert.ReferenceIdeal.RefValue

open Cert.ReferenceIdeal Cert.ReferenceIdeal.Gen Idealize.ShloMosaic

def normOf (idx : IVec S800000 32) : FVec Ideal S50000x1 .f32 :=
  broadcastInDim S50000x1 ![0] bcast_S50000_S50000x1_0 (Host.rsqrt (F := Ideal) (maximumf (F := Ideal) (broadcastInDim S50000 ![] bcast_S_S50000 (id (constant (F := Ideal) S_ .f32 0x3F800000#32))) (Host.scatterAdd (F := Ideal) scatter_S50000_S800000x1_S800000_n_0_0_1 (broadcastInDim S50000 ![] bcast_S_S50000 (constant (F := Ideal) S_ .f32 0x00000000#32)) (broadcastInDim S800000x1 ![0] bcast_S800000_S800000x1_0 idx) (broadcastInDim S800000 ![] bcast_S_S800000 (constant (F := Ideal) S_ .f32 0x3F800000#32)))))

def aggOf (src dst : IVec S800000 32) (h : FVec Ideal S50000x128 .f32) : FVec Ideal S50000x128 .f32 :=
  Host.scatterAdd (F := Ideal) scatter_S50000x128_S800000x1_S800000x128_1_0_0_1 (broadcastInDim S50000x128 ![] bcast_S_S50000x128 (constant (F := Ideal) S_ .f32 0x00000000#32)) (broadcastInDim S800000x1 ![0] bcast_S800000_S800000x1_0 dst) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))

def gidCol (gid : IVec S50000 32) : IVec S50000x1 32 :=
  broadcastInDim S50000x1 ![0] bcast_S50000_S50000x1_0 gid

end Cert.ReferenceIdeal.RefValue

end
-- ==== Proof.LibScatterRows.lean ====
import Idealize.ShloMosaic.Lib.ValueIdx

noncomputable section

open scoped BigOperators

namespace Cert.LibScatterRows

open Idealize.ShloMosaic Idealize.ShloMosaic.ValueIdx

abbrev rowsDims (N C K : Nat) (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section Rows

variable {N C K w : Nat} (wf : ScatterDims.WF ⟨2, ![N, C]⟩ ⟨2, ![K, 1]⟩ ⟨2, ![K, C]⟩ [1] [0] [0] 1)

theorem start_row (idx : IVec ⟨2, ![K, 1]⟩ w) (k : Fin K) (e : Fin C) :
    (rowsDims N C K wf).start (ix2 k e) idx 0 = (idx (ix2 k ⟨0, Nat.one_pos⟩)).toInt := by
  unfold ScatterDims.start
  rw [dif_pos (show (0 : Fin 2) ∈ (rowsDims N C K wf).scatterDimsToOperandDims from List.mem_singleton.mpr rfl)]
  congr 2
  funext b; refine Fin.ext ?_
  match b with
  | ⟨0, _⟩ => rfl
  | ⟨1, _⟩ => rfl

theorem start_col (idx : IVec ⟨2, ![K, 1]⟩ w) (j : (⟨2, ![K, C]⟩ : Shape).Idx) :
    (rowsDims N C K wf).start j idx 1 = 0 := by
  unfold ScatterDims.start
  rw [dif_neg (show ¬ (1 : Fin 2) ∈ ([0] : List (Fin 2)) from by decide)]

theorem window_row (j : (⟨2, ![K, C]⟩ : Shape).Idx) : (rowsDims N C K wf).window j 0 = 0 := by
  unfold ScatterDims.window
  have h : ¬ (0 : Fin 2) ∈ (rowsDims N C K wf).sKept := by
    show ¬ (0 : Fin 2) ∈ (List.finRange 2).filter (· ∉ ([0] : List (Fin 2)))
    decide
  rw [dif_neg h]

theorem window_col (k : Fin K) (e : Fin C) : (rowsDims N C K wf).window (ix2 k e) 1 = e.val := by
  unfold ScatterDims.window
  have h : (1 : Fin 2) ∈ (rowsDims N C K wf).sKept := by
    show (1 : Fin 2) ∈ (List.finRange 2).filter (· ∉ ([0] : List (Fin 2)))
    decide
  rw [dif_pos h]
  rfl

theorem resultIdx?_rows (idx : IVec ⟨2, ![K, 1]⟩ w) (k : Fin K) (e : Fin C) (n : Fin N) (c : Fin C) :
    (rowsDims N C K wf).resultIdx? (ix2 k e) idx = some (ix2 n c) ↔
      (idx (ix2 k ⟨0, Nat.one_pos⟩)).toInt = (n.val : Int) ∧ e = c := by
  have he : e.val < C := e.isLt
  have hn : n.val < N := n.isLt
  unfold ScatterDims.resultIdx?
  constructor
  · intro h
    split at h
    · rename_i hh
      have hf := Option.some.inj h
      have h0 := congrArg Fin.val (congrFun hf 0)
      have h1 := congrArg Fin.val (congrFun hf 1)
      have hh0 := (hh 0).1
      simp only [start_row, start_col, window_row, window_col] at h0 h1 hh0
      refine ⟨?_, Fin.ext ?_⟩
      · change ((idx (ix2 k ⟨0, Nat.one_pos⟩)).toInt + ((0 : Nat) : Int)).toNat = n.val at h0
        omega
      · change (0 + (e.val : Int)).toNat = c.val at h1
        omega
    · exact absurd h (by simp)
  · rintro ⟨hi, rfl⟩
    have hall : ∀ a : Fin 2, 0 ≤ (rowsDims N C K wf).start (ix2 k e) idx a + ((rowsDims N C K wf).window (ix2 k e) a : Int) ∧
        (rowsDims N C K wf).start (ix2 k e) idx a + ((rowsDims N C K wf).window (ix2 k e) a : Int)
          < ((⟨2, ![N, C]⟩ : Shape).size a : Int) := by
      intro a
      match a with
      | ⟨0, _⟩ =>
        rw [show (⟨0, by omega⟩ : Fin 2) = 0 from rfl, start_row, window_row, hi]
        change 0 ≤ (n.val : Int) + ((0 : Nat) : Int) ∧ (n.val : Int) + ((0 : Nat) : Int) < (N : Int)
        omega
      | ⟨1, _⟩ =>
        rw [show (⟨1, by omega⟩ : Fin 2) = 1 from rfl, start_col, window_col]
        change 0 ≤ 0 + (e.val : Int) ∧ 0 + (e.val : Int) < (C : Int)
        omega
    rw [dif_pos hall]
    congr 1
    funext a; refine Fin.ext ?_
    match a with
    | ⟨0, _⟩ =>
      show ((rowsDims N C K wf).start (ix2 k e) idx 0 + ((rowsDims N C K wf).window (ix2 k e) 0 : Int)).toNat = n.val
      rw [start_row, window_row, hi]; omega
    | ⟨1, _⟩ =>
      show ((rowsDims N C K wf).start (ix2 k e) idx 1 + ((rowsDims N C K wf).window (ix2 k e) 1 : Int)).toNat = e.val
      rw [start_col, window_col]; omega

theorem scatterAdd_rowsDims_apply (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd (rowsDims N C K wf) x idx upd (ix2 n c) =
      x (ix2 n c) + ∑ k : Fin K, if (idx (ix2 k ⟨0, Nat.one_pos⟩)).toInt = (n.val : Int) then upd (ix2 k c) else 0 := by
  unfold Ideal.hostScatterAdd
  congr 1
  rw [Finset.sum_filter, sum_idx2]
  refine Finset.sum_congr rfl fun k _ => ?_

  rw [Finset.sum_eq_single c]
  · by_cases h : (idx (ix2 k ⟨0, Nat.one_pos⟩)).toInt = (n.val : Int)
    · rw [if_pos h, if_pos ((resultIdx?_rows wf idx k c n c).mpr ⟨h, rfl⟩)]
    · rw [if_neg h, if_neg (fun h' => h ((resultIdx?_rows wf idx k c n c).mp h').1)]
  · intro e _ hec
    rw [if_neg (fun h' => hec ((resultIdx?_rows wf idx k e n c).mp h').2)]
  · intro h; exact absurd (Finset.mem_univ c) h

end Rows

theorem scatterAdd_rows_apply {N C K w : Nat}
    (d : ScatterDims ⟨2, ![N, C]⟩ ⟨2, ![K, 1]⟩ ⟨2, ![K, C]⟩)
    (huw : d.updateWindowDims = [1]) (hiw : d.insertedWindowDims = [0])
    (hsd : d.scatterDimsToOperandDims = [0]) (hiv : d.indexVectorDim = 1)
    (x : (⟨2, ![N, C]⟩ : Shape).Idx → EReal) (idx : IVec ⟨2, ![K, 1]⟩ w)
    (upd : (⟨2, ![K, C]⟩ : Shape).Idx → EReal) (n : Fin N) (c : Fin C) :
    Ideal.hostScatterAdd d x idx upd (ix2 n c) =
      x (ix2 n c) + ∑ k : Fin K, if (idx (ix2 k ⟨0, Nat.one_pos⟩)).toInt = (n.val : Int) then upd (ix2 k c) else 0 := by
  obtain ⟨uw, iw, sd, iv, wf⟩ := d
  dsimp only at huw hiw hsd hiv
  subst huw hiw hsd hiv
  exact scatterAdd_rowsDims_apply wf x idx upd n c

abbrev vecDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

section Vec

variable {N K w : Nat} (wf : ScatterDims.WF ⟨1, ![N]⟩ ⟨2, ![K, 1]⟩ ⟨1, ![K]⟩ [] [0] [0] 1)

theorem start_vec (idx : IVec ⟨2, ![K, 1]⟩ w) (k : Fin K) :
    (vecDims N K wf).start (ix1 k) idx 0 = (idx (ix2 k ⟨0, Nat.one_pos⟩)).toInt := by
  unfold ScatterDims.start
  rw [dif_pos (show (0 : Fin 1) ∈ (vecDims N K wf).scatterDimsToOperandDims from List.mem_singleton.mpr rfl)]
  congr 2
  funext b; refine Fin.ext ?_
  match b with
  | ⟨0, _⟩ => rfl
  | ⟨1, _⟩ => rfl

theorem window_vec (j : (⟨1, ![K]⟩ : Shape).Idx) : (vecDims N K wf).window j 0 = 0 := by
  unfold ScatterDims.window
  have h : ¬ (0 : Fin 1) ∈ (vecDims N K wf).sKept := by
    show ¬ (0 : Fin 1) ∈ (List.finRange 1).filter (· ∉ ([0] : List (Fin 1)))
    decide
  rw [dif_neg h]

theorem resultIdx?_vec (idx : IVec ⟨2, ![K, 1]⟩ w) (k : Fin K) (n : Fin N) :
    (vecDims N K wf).resultIdx? (ix1 k) idx = some (ix1 n) ↔
      (idx (ix2 k ⟨0, Nat.one_pos⟩)).toInt = (n.val : Int) := by
  have hn : n.val < N := n.isLt
  unfold ScatterDims.resultIdx?
  constructor
  · intro h
    split at h
    · have hf := Option.some.inj h
      have h0 := congrArg Fin.val (congrFun hf 0)
      simp only [start_vec, window_vec] at h0
      change ((idx (ix2 k ⟨0, Nat.one_pos⟩)).toInt + ((0 : Nat) : Int)).toNat = n.val at h0
      rename_i hh
      have hh0 := (hh 0).1
      simp only [start_vec, window_vec] at hh0
      omega
    · exact absurd h (by simp)
  · intro hi
    have hall : ∀ a : Fin 1, 0 ≤ (vecDims N K wf).start (ix1 k) idx a + ((vecDims N K wf).window (ix1 k) a : Int) ∧
        (vecDims N K wf).start (ix1 k) idx a + ((vecDims N K wf).window (ix1 k) a : Int)
          < ((⟨1, ![N]⟩ : Shape).size a : Int) := by
      intro a
      match a with
      | ⟨0, _⟩ =>
        rw [show (⟨0, by omega⟩ : Fin 1) = 0 from rfl, start_vec, window_vec, hi]
        change 0 ≤ (n.val : Int) + ((0 : Nat) : Int) ∧ (n.val : Int) + ((0 : Nat) : Int) < (N : Int)
        omega
    rw [dif_pos hall]
    congr 1
    funext a; refine Fin.ext ?_
    match a with
    | ⟨0, _⟩ =>
      show ((vecDims N K wf).start (ix1 k) idx 0 + ((vecDims N K wf).window (ix1 k) 0 : Int)).toNat = n.val
      rw [start_vec, window_vec, hi]; omega

theorem scatterAdd_vecDims_apply (x : (⟨1, ![N]⟩ : Shape).Idx → EReal) (idx : IVec ⟨2, ![K, 1]⟩ w)
    (upd : (⟨1, ![K]⟩ : Shape).Idx → EReal) (n : Fin N) :
    Ideal.hostScatterAdd (vecDims N K wf) x idx upd (ix1 n) =
      x (ix1 n) + ∑ k : Fin K, if (idx (ix2 k ⟨0, Nat.one_pos⟩)).toInt = (n.val : Int) then upd (ix1 k) else 0 := by
  unfold Ideal.hostScatterAdd
  congr 1
  rw [Finset.sum_filter, sum_idx1]
  refine Finset.sum_congr rfl fun k _ => ?_
  by_cases h : (idx (ix2 k ⟨0, Nat.one_pos⟩)).toInt = (n.val : Int)
  · rw [if_pos h, if_pos ((resultIdx?_vec wf idx k n).mpr h)]
  · rw [if_neg h, if_neg (fun h' => h ((resultIdx?_vec wf idx k n).mp h'))]

end Vec

theorem scatterAdd_vec_apply {N K w : Nat}
    (d : ScatterDims ⟨1, ![N]⟩ ⟨2, ![K, 1]⟩ ⟨1, ![K]⟩)
    (huw : d.updateWindowDims = []) (hiw : d.insertedWindowDims = [0])
    (hsd : d.scatterDimsToOperandDims = [0]) (hiv : d.indexVectorDim = 1)
    (x : (⟨1, ![N]⟩ : Shape).Idx → EReal) (idx : IVec ⟨2, ![K, 1]⟩ w)
    (upd : (⟨1, ![K]⟩ : Shape).Idx → EReal) (n : Fin N) :
    Ideal.hostScatterAdd d x idx upd (ix1 n) =
      x (ix1 n) + ∑ k : Fin K, if (idx (ix2 k ⟨0, Nat.one_pos⟩)).toInt = (n.val : Int) then upd (ix1 k) else 0 := by
  obtain ⟨uw, iw, sd, iv, wf⟩ := d
  dsimp only at huw hiw hsd hiv
  subst huw hiw hsd hiv
  exact scatterAdd_vecDims_apply wf x idx upd n

end Cert.LibScatterRows

end
-- ==== Proof.Ref.RefValue.lean ====
import proofs.«428257_j47124381171999_2_alg».proof.Proof.Ref.Imports
import proofs.«428257_j47124381171999_2_alg».proof.Proof.Ref.RefChains
import proofs.«428257_j47124381171999_2_alg».proof.Proof.Spec
import proofs.«428257_j47124381171999_2_alg».proof.Proof.LibScatterRows
import Idealize.ShloMosaic.Lib.ValueIdx
import Idealize.ShloMosaic.Lib.Pipeline.Value
import Idealize.ShloMosaic.PureOps.Ideal.Laws
import Idealize.ShloMosaic.Lib.IdealHost
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

section
variable (x0 x1 : IVec S800000 32) (x2 : IVec S50000 32) (x3 : FVec Ideal S50000x128 .f32) (x4 : FVec Ideal S128x128 .f32)
  (x5 : FVec Ideal S128 .f32) (x6 : FVec Ideal S128x128 .f32) (x7 : FVec Ideal S128 .f32) (x8 : FVec Ideal S128x10 .f32) (x9 : FVec Ideal S10 .f32)

theorem v10_eq : Read.val_main_v10 (F := Ideal) x0 = normOf x0 := rfl
theorem v12_eq : Read.val_main_v12 (F := Ideal) x1 = normOf x1 := rfl
theorem v51_eq : Read.val_main_v51 (F := Ideal) x2 = gidCol x2 := rfl
theorem v55_eq : Read.val_main_v55 (F := Ideal) x2 = gidCol x2 := rfl
theorem v25_eq :
    Read.val_main_v25 (F := Ideal) x0 x1 x3 x4 = aggOf x0 x1 (Read.val_main_v15 (F := Ideal) x0 x3 x4) := rfl
theorem v44_eq :
    Read.val_main_v44 (F := Ideal) x0 x1 x3 x4 x5 x6 = aggOf x0 x1 (Read.val_main_v34 (F := Ideal) x0 x1 x3 x4 x5 x6) := rfl

theorem v15_eq :
    Read.val_main_v15 (F := Ideal) x0 x3 x4 = Cert.Spec.hw x3 x4 (normOf x0) := by
  funext i
  obtain ⟨r, c, rfl⟩ : ∃ (r : Fin 50000) (c : Fin 128), i = ix2 r c := ⟨i 0, i 1, eq_ix2 i⟩
  have el : ∀ k : Fin 128, Read.lidx_main_v13 (ix2 r c) k = ix2 r k := fun k => funext fun a => Fin.ext (by
    match a with
    | ⟨0, _⟩ => rfl
    | ⟨1, _⟩ => rfl)
  have er : ∀ k : Fin 128, Read.ridx_main_v13 (ix2 r c) k = ix2 k c := fun k => funext fun a => Fin.ext (by
    match a with
    | ⟨0, _⟩ => rfl
    | ⟨1, _⟩ => rfl)
  have ec : Read.idx_main_v14 (ix2 r c) = ix2 r (0 : Fin 1) := funext fun a => Fin.ext (by
    match a with
    | ⟨0, _⟩ => rfl
    | ⟨1, _⟩ => rfl)
  rw [Read.val_main_v15_apply, Read.val_main_v13_apply, Read.val_main_v14_apply, v10_eq, ec]
  simp only [el, er, Ideal.mulf_def]
  rfl

theorem v31_at (r : Fin 50000) (k : Fin 128) :
    Read.val_main_v31 (F := Ideal) x0 x1 x3 x4 x5 (ix2 r k) = Cert.Spec.h1At (aggOf x0 x1 (Cert.Spec.hw x3 x4 (normOf x0))) (normOf x1) x5 r k := by
  have ec : Read.idx_main_v26 (ix2 r k) = ix2 r (0 : Fin 1) := funext fun a => Fin.ext (by
    match a with
    | ⟨0, _⟩ => rfl
    | ⟨1, _⟩ => rfl)
  have eb : Read.idx_main_v28 (Read.idx_main_v29 (ix2 r k)) = ix1 k := funext fun a => Fin.ext (by
    match a with
    | ⟨0, _⟩ => rfl)
  rw [Read.val_main_v31_apply, Read.val_main_v30_apply, Read.val_main_v27_apply, Read.val_main_v26_apply,
    Read.val_main_v29_apply, Read.val_main_v28_apply, Read.val_main_call2_v0_apply, Read.val_main_call2_cst_apply,
    v25_eq, v15_eq, v12_eq, ec, eb]
  simp only [Ideal.maximumf_def, Ideal.addf_def, Ideal.mulf_def, Ideal.ofBits_def, Ideal.ofBits_zero_f32]
  rfl

theorem v34_eq :
    Read.val_main_v34 (F := Ideal) x0 x1 x3 x4 x5 x6 = (Cert.Spec.hw2 (aggOf x0 x1 (Cert.Spec.hw x3 x4 (normOf x0))) (normOf x1) x5 x6 (normOf x0)) := by
  funext i
  obtain ⟨r, c, rfl⟩ : ∃ (r : Fin 50000) (c : Fin 128), i = ix2 r c := ⟨i 0, i 1, eq_ix2 i⟩
  have el : ∀ k : Fin 128, Read.lidx_main_v32 (ix2 r c) k = ix2 r k := fun k => funext fun a => Fin.ext (by
    match a with
    | ⟨0, _⟩ => rfl
    | ⟨1, _⟩ => rfl)
  have er : ∀ k : Fin 128, Read.ridx_main_v32 (ix2 r c) k = ix2 k c := fun k => funext fun a => Fin.ext (by
    match a with
    | ⟨0, _⟩ => rfl
    | ⟨1, _⟩ => rfl)
  have ec : Read.idx_main_v33 (ix2 r c) = ix2 r (0 : Fin 1) := funext fun a => Fin.ext (by
    match a with
    | ⟨0, _⟩ => rfl
    | ⟨1, _⟩ => rfl)
  rw [Read.val_main_v34_apply, Read.val_main_v32_apply, Read.val_main_v33_apply, v10_eq, ec]
  simp only [el, er, v31_at, Ideal.mulf_def]
  rfl

theorem v49_at (r : Fin 50000) (f : Fin 128) :
    Read.val_main_v49 (F := Ideal) x0 x1 x3 x4 x5 x6 x7 (ix2 r f) = Cert.Spec.h2At (aggOf x0 x1 (Cert.Spec.hw2 (aggOf x0 x1 (Cert.Spec.hw x3 x4 (normOf x0))) (normOf x1) x5 x6 (normOf x0))) (normOf x1) x7 r f := by
  have ec : Read.idx_main_v45 (ix2 r f) = ix2 r (0 : Fin 1) := funext fun a => Fin.ext (by
    match a with
    | ⟨0, _⟩ => rfl
    | ⟨1, _⟩ => rfl)
  have eb : Read.idx_main_v47 (Read.idx_main_v48 (ix2 r f)) = ix1 f := funext fun a => Fin.ext (by
    match a with
    | ⟨0, _⟩ => rfl)
  rw [Read.val_main_v49_apply, Read.val_main_v46_apply, Read.val_main_v45_apply, Read.val_main_v48_apply,
    Read.val_main_v47_apply, v44_eq, v34_eq, v12_eq, ec, eb]
  simp only [Ideal.addf_def, Ideal.mulf_def]
  rfl

theorem v52_at (g : Fin 64) (f : Fin 128) :
    Read.val_main_v52 (F := Ideal) x0 x1 x2 x3 x4 x5 x6 x7 (ix2 g f) =
      Cert.Spec.sumAt (aggOf x0 x1 (Cert.Spec.hw2 (aggOf x0 x1 (Cert.Spec.hw x3 x4 (normOf x0))) (normOf x1) x5 x6 (normOf x0))) (normOf x1) x7 (gidCol x2) g f := by
  unfold Read.val_main_v52 Host.scatterAdd
  rw [Ideal.hostScatterAdd_def, v51_eq]
  refine (Cert.LibScatterRows.scatterAdd_rows_apply (w := 32) scatter_S64x128_S50000x1_S50000x128_1_0_0_1 rfl rfl rfl rfl
    (Read.val_main_v50 (F := Ideal)) (gidCol x2) (Read.val_main_v49 (F := Ideal) x0 x1 x3 x4 x5 x6 x7) g f).trans ?_
  rw [Read.val_main_v50_apply, Read.val_main_cst_9_apply]
  simp only [Ideal.ofBits_def, Ideal.ofBits_zero_f32, zero_add]
  unfold Cert.Spec.sumAt
  refine Finset.sum_congr rfl fun r _ => ?_
  rw [v49_at]
  exact if_congr Iff.rfl rfl rfl

theorem v56_at (g : Fin 64) :
    Read.val_main_v56 (F := Ideal) x2 (ix1 g) = Cert.Spec.cntAt (gidCol x2) g := by
  unfold Read.val_main_v56 Host.scatterAdd
  rw [Ideal.hostScatterAdd_def, v55_eq]
  refine (Cert.LibScatterRows.scatterAdd_vec_apply (w := 32) scatter_S64_S50000x1_S50000_n_0_0_1 rfl rfl rfl rfl
    (Read.val_main_v54 (F := Ideal)) (gidCol x2) (Read.val_main_v53 (F := Ideal)) g).trans ?_
  rw [Read.val_main_v54_apply, Read.val_main_cst_11_apply]
  simp only [Ideal.ofBits_def, Ideal.ofBits_zero_f32, zero_add]
  unfold Cert.Spec.cntAt
  refine Finset.sum_congr rfl fun r _ => ?_
  rw [Read.val_main_v53_apply, Read.val_main_cst_10_apply]
  simp only [Ideal.ofBits_def, Ideal.ofBits_one_f32]
  exact if_congr Iff.rfl rfl rfl

theorem v57_at (g : Fin 64) :
    Read.val_main_v57 (F := Ideal) x2 (ix1 g) = max 1 (Cert.Spec.cntAt (gidCol x2) g) := by
  rw [Read.val_main_v57_apply, Read.val_main_call3_v1_apply, Read.val_main_call3_v0_apply, Read.val_main_cst_12_apply, v56_at]
  simp only [Ideal.maximumf_def, Ideal.ofBits_def, Ideal.ofBits_one_f32]

theorem v60_at (g : Fin 64) (f : Fin 128) :
    Read.val_main_v60 (F := Ideal) x0 x1 x2 x3 x4 x5 x6 x7 (ix2 g f) =
      Ideal.div (Cert.Spec.sumAt (aggOf x0 x1 (Cert.Spec.hw2 (aggOf x0 x1 (Cert.Spec.hw x3 x4 (normOf x0))) (normOf x1) x5 x6 (normOf x0))) (normOf x1) x7 (gidCol x2) g f) (max 1 (Cert.Spec.cntAt (gidCol x2) g)) := by
  have e : Read.idx_main_v58 (Read.idx_main_v59 (ix2 g f)) = ix1 g := funext fun a => Fin.ext (by
    match a with
    | ⟨0, _⟩ => rfl)
  rw [Read.val_main_v60_apply, Read.val_main_v59_apply, Read.val_main_v58_apply, v52_at, e, v57_at]
  simp only [Ideal.hostDivf_def]

theorem val_eq :
    Read.val_main_v64 (F := Ideal) x0 x1 x2 x3 x4 x5 x6 x7 x8 x9 = Cert.Spec.pool (aggOf x0 x1 (Cert.Spec.hw2 (aggOf x0 x1 (Cert.Spec.hw x3 x4 (normOf x0))) (normOf x1) x5 x6 (normOf x0))) (normOf x1) x7 (gidCol x2) x8 x9 := by
  funext i
  obtain ⟨g, j, rfl⟩ : ∃ (g : Fin 64) (j : Fin 10), i = ix2 g j := ⟨i 0, i 1, eq_ix2 i⟩
  have el : ∀ k : Fin 128, Read.lidx_main_v61 (ix2 g j) k = ix2 g k := fun k => funext fun a => Fin.ext (by
    match a with
    | ⟨0, _⟩ => rfl
    | ⟨1, _⟩ => rfl)
  have er : ∀ k : Fin 128, Read.ridx_main_v61 (ix2 g j) k = ix2 k j := fun k => funext fun a => Fin.ext (by
    match a with
    | ⟨0, _⟩ => rfl
    | ⟨1, _⟩ => rfl)
  have eb : Read.idx_main_v62 (Read.idx_main_v63 (ix2 g j)) = ix1 j := funext fun a => Fin.ext (by
    match a with
    | ⟨0, _⟩ => rfl)
  rw [Read.val_main_v64_apply, Read.val_main_v61_apply, Read.val_main_v63_apply, Read.val_main_v62_apply, eb]
  simp only [el, er, v60_at, Ideal.addf_def]
  rfl

end

theorem res_eq (m : (ℓ : Loc nD τ sig) → Buf (Elt Ideal) ℓ) (c : Dev nD) :
    (Cert.ReferenceIdeal.Value.res_main_v64 m c : S64x10.Idx → EReal) = Cert.Spec.pool (aggOf (m ((c.tc : Thread nD τ).loc main_arg0)) (m ((c.tc : Thread nD τ).loc main_arg1)) (Cert.Spec.hw2 (aggOf (m ((c.tc : Thread nD τ).loc main_arg0)) (m ((c.tc : Thread nD τ).loc main_arg1)) (Cert.Spec.hw (m ((c.tc : Thread nD τ).loc main_arg3)) (m ((c.tc : Thread nD τ).loc main_arg4)) (normOf (m ((c.tc : Thread nD τ).loc main_arg0))))) (normOf (m ((c.tc : Thread nD τ).loc main_arg1))) (m ((c.tc : Thread nD τ).loc main_arg5)) (m ((c.tc : Thread nD τ).loc main_arg6)) (normOf (m ((c.tc : Thread nD τ).loc main_arg0))))) (normOf (m ((c.tc : Thread nD τ).loc main_arg1))) (m ((c.tc : Thread nD τ).loc main_arg7)) (gidCol (m ((c.tc : Thread nD τ).loc main_arg2))) (m ((c.tc : Thread nD τ).loc main_arg8)) (m ((c.tc : Thread nD τ).loc main_arg9)) :=
  (Read.val_main_v64_eq m c).trans (val_eq _ _ _ _ _ _ _ _ _ _)

end Cert.ReferenceIdeal.RefValue

end
-- ==== Proof.Bridge.lean ====
import proofs.«428257_j47124381171999_2_alg».proof.Proof.KI.HostRead
import proofs.«428257_j47124381171999_2_alg».proof.Proof.Ref.RefChains
import proofs.«428257_j47124381171999_2_alg».proof.Proof.LibColumn
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx

theorem normOf_eq (idx : IVec Cert.KernelIdeal.S800000 32) :
    Cert.KernelIdeal.HandH.normOf (F := Ideal) idx = Cert.ReferenceIdeal.RefValue.normOf idx := rfl

theorem aggOf_eq (src dst : IVec Cert.KernelIdeal.S800000 32) (h : FVec Ideal Cert.KernelIdeal.S50000x128 .f32) :
    Cert.KernelIdeal.HandH.aggOf (F := Ideal) src dst h = Cert.ReferenceIdeal.RefValue.aggOf src dst h := rfl

theorem gidCol_eq (gid : IVec Cert.KernelIdeal.S50000 32) :
    Cert.KernelIdeal.HandH.gidCol gid = Cert.ReferenceIdeal.RefValue.gidCol gid := by
  funext i
  obtain ⟨r, u, rfl⟩ : ∃ (r : Fin 50000) (u : Fin 1), i = ix2 r u := ⟨i 0, i 1, eq_ix2 i⟩
  unfold Cert.KernelIdeal.HandH.gidCol Cert.ReferenceIdeal.RefValue.gidCol
  rw [Cert.LibColumn.shapeCast_a_a1_apply gid _ r u]
  refine (broadcastInDim_apply _ _ gid (ix2 r u) (ix1 r) (fun a => ?_)).symm
  match a with
  | ⟨0, _⟩ =>
    show r.val = if (50000 : ℕ) = 1 then 0 else r.val
    rw [if_neg (by decide)]

end Cert.Bridge

end
-- ==== Proof.lean ====
/- Two graph-convolution layers, mean pooling and a linear classifier. Both programs compute the same function of the
   arguments at the extended reals: a product with a one-hot row is a sum over the members, and a sum over the nodes is
   the sum of its ten block sums. -/
import proofs.«428257_j47124381171999_2_alg».proof.Defs
import proofs.«428257_j47124381171999_2_alg».proof.Proof.Gen.Kernel
import proofs.«428257_j47124381171999_2_alg».proof.Proof.Gen.KernelIdeal
import proofs.«428257_j47124381171999_2_alg».proof.Proof.Gen.ReferenceIdeal
import proofs.«428257_j47124381171999_2_alg».proof.Proof.Gen.Pre_finite_inputs
import proofs.«428257_j47124381171999_2_alg».proof.Proof.K.Run
import proofs.«428257_j47124381171999_2_alg».proof.Proof.KI.Run
import proofs.«428257_j47124381171999_2_alg».proof.Proof.KI.KVal
import proofs.«428257_j47124381171999_2_alg».proof.Proof.Ref.RefValue
import proofs.«428257_j47124381171999_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => Cert.KernelIdeal.Hand.W10 (F := Ideal) m ρ c (Proc.devRef .tc Cert.KernelIdeal.main_v36),
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.RefValue.res_eq m' c, h0, h1, h2, h3, h4, h5, h6, h7, h8, h9]
  refine Eq.trans ?_ (Cert.KernelIdeal.HandV.result_eq m ρ c).symm
  simp only [Cert.Bridge.normOf_eq, Cert.Bridge.aggOf_eq, Cert.Bridge.gidCol_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
